-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S4x4096x4096 : Shape := ⟨3, ![4, 4096, 4096]⟩
abbrev S128x384 : Shape := ⟨2, ![128, 384]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S128x384 : S_.BroadcastsInDim S128x384 (![] : Fin 0 → Fin S128x384.rank)
  reducesTo_S128x384_S_d0_1 : S128x384.ReducesTo [0, 1] S_

variable [Facts]

def fn {F : FTy → Type} [FloatOps F] (main_arg0 : FVec F S4x4096x128 .f32) (main_arg1 : FVec F S4x4096x4096 .f32) (main_arg2 : FVec F S128x384 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S128x384 .f32 := Host.absf main_arg2
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  main_v13
-- ==== Kernel.lean ====
abbrev S4x4096x128 : Shape := ⟨3, ![4, 4096, 128]⟩
abbrev S4x4096x4096 : Shape := ⟨3, ![4, 4096, 4096]⟩
abbrev S128x384 : Shape := ⟨2, ![128, 384]⟩
abbrev S4x4096 : Shape := ⟨2, ![4, 4096]⟩
abbrev S4x512x1024 : Shape := ⟨3, ![4, 512, 1024]⟩
abbrev S4x1024 : Shape := ⟨2, ![4, 1024]⟩
abbrev S4x4096x1 : Shape := ⟨3, ![4, 4096, 1]⟩
abbrev S1x1024x2048 : Shape := ⟨3, ![1, 1024, 2048]⟩
abbrev S1x2048x128 : Shape := ⟨3, ![1, 2048, 128]⟩
abbrev S1x1024x128 : Shape := ⟨3, ![1, 1024, 128]⟩
abbrev S1024x128 : Shape := ⟨2, ![1024, 128]⟩
abbrev S1024x2048 : Shape := ⟨2, ![1024, 2048]⟩
abbrev S2048x128 : Shape := ⟨2, ![2048, 128]⟩
abbrev S_ : Shape := ⟨0, ![]⟩
abbrev S4x1x4096x128 : Shape := ⟨4, ![4, 1, 4096, 128]⟩
abbrev S4x3x4096x128 : Shape := ⟨4, ![4, 3, 4096, 128]⟩
abbrev S4x4096x384 : Shape := ⟨3, ![4, 4096, 384]⟩
abbrev S384x128 : Shape := ⟨2, ![384, 128]⟩
abbrev S1x1024x384 : Shape := ⟨3, ![1, 1024, 384]⟩
abbrev S1024x384 : Shape := ⟨2, ![1024, 384]⟩

abbrev nBuf : Space → Nat
  | .hbm => 32
  | .vmem => 24
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S128x384, .f32⟩
  | .hbm, ⟨3, _⟩ => ⟨S4x4096, .f32⟩
  | .hbm, ⟨4, _⟩ => ⟨S4x4096x1, .f32⟩
  | .hbm, ⟨5, _⟩ => ⟨S4x4096x128, .f32⟩
  | .hbm, ⟨6, _⟩ => ⟨S4x4096x128, .f32⟩
  | .hbm, ⟨7, _⟩ => ⟨S4x4096x128, .f32⟩
  | .hbm, ⟨8, _⟩ => ⟨S4x4096x128, .f32⟩
  | .hbm, ⟨9, _⟩ => ⟨S_, .f32⟩
  | .hbm, ⟨10, _⟩ => ⟨S4x4096x128, .f32⟩
  | .hbm, ⟨11, _⟩ => ⟨S4x4096x128, .f32⟩
  | .hbm, ⟨12, _⟩ => ⟨S4x4096x128, .f32⟩
  | .hbm, ⟨13, _⟩ => ⟨S4x4096x128, .f32⟩
  | .hbm, ⟨14, _⟩ => ⟨S4x4096x128, .f32⟩
  | .hbm, ⟨15, _⟩ => ⟨S4x4096x128, .f32⟩
  | .hbm, ⟨16, _⟩ => ⟨S4x4096x128, .f32⟩
  | .hbm, ⟨17, _⟩ => ⟨S_, .f32⟩
  | .hbm, ⟨18, _⟩ => ⟨S4x4096x128, .f32⟩
  | .hbm, ⟨19, _⟩ => ⟨S4x4096x128, .f32⟩
  | .hbm, ⟨20, _⟩ => ⟨S4x4096x128, .f32⟩
  | .hbm, ⟨21, _⟩ => ⟨S_, .f32⟩
  | .hbm, ⟨22, _⟩ => ⟨S4x4096x128, .f32⟩
  | .hbm, ⟨23, _⟩ => ⟨S4x4096x128, .f32⟩
  | .hbm, ⟨24, _⟩ => ⟨S4x4096x128, .f32⟩
  | .hbm, ⟨25, _⟩ => ⟨S4x1x4096x128, .f32⟩
  | .hbm, ⟨26, _⟩ => ⟨S4x1x4096x128, .f32⟩
  | .hbm, ⟨27, _⟩ => ⟨S4x1x4096x128, .f32⟩
  | .hbm, ⟨28, _⟩ => ⟨S4x3x4096x128, .f32⟩
  | .hbm, ⟨29, _⟩ => ⟨S4x4096x384, .f32⟩
  | .hbm, ⟨30, _⟩ => ⟨S384x128, .f32⟩
  | .hbm, ⟨31, _⟩ => ⟨S4x4096x128, .f32⟩
  | .local _ .vmem, ⟨0, _⟩ => ⟨S4x512x1024, .f32⟩
  | .local _ .vmem, ⟨1, _⟩ => ⟨S4x512x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S1x1024x2048, .f32⟩
  | .local _ .vmem, ⟨6, _⟩ => ⟨S1x1024x2048, .f32⟩
  | .local _ .vmem, ⟨7, _⟩ => ⟨S1x2048x128, .f32⟩
  | .local _ .vmem, ⟨8, _⟩ => ⟨S1x2048x128, .f32⟩
  | .local _ .vmem, ⟨9, _⟩ => ⟨S1x1024x128, .f32⟩
  | .local _ .vmem, ⟨10, _⟩ => ⟨S1x1024x128, .f32⟩
  | .local _ .vmem, ⟨11, _⟩ => ⟨S1024x128, .f32⟩
  | .local _ .vmem, ⟨12, _⟩ => ⟨S1x1024x2048, .f32⟩
  | .local _ .vmem, ⟨13, _⟩ => ⟨S1x1024x2048, .f32⟩
  | .local _ .vmem, ⟨14, _⟩ => ⟨S1x2048x128, .f32⟩
  | .local _ .vmem, ⟨15, _⟩ => ⟨S1x2048x128, .f32⟩
  | .local _ .vmem, ⟨16, _⟩ => ⟨S1x1024x128, .f32⟩
  | .local _ .vmem, ⟨17, _⟩ => ⟨S1x1024x128, .f32⟩
  | .local _ .vmem, ⟨18, _⟩ => ⟨S1024x128, .f32⟩
  | .local _ .vmem, ⟨19, _⟩ => ⟨S1x1024x384, .f32⟩
  | .local _ .vmem, ⟨20, _⟩ => ⟨S1x1024x384, .f32⟩
  | .local _ .vmem, ⟨21, _⟩ => ⟨S384x128, .f32⟩
  | .local _ .vmem, ⟨22, _⟩ => ⟨S1x1024x128, .f32⟩
  | .local _ .vmem, ⟨23, _⟩ => ⟨S1x1024x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_10 : BitVec 32 := 0#32
  let v17 : BitVec 1 := Scalar.cmpi .ne v16 c0_i32_10
  v17

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 4, 2], ![false, false, false]⟩

def k2_cond2 (i : grid2.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_10 : BitVec 32 := 0#32
  let v17 : BitVec 1 := Scalar.cmpi .ne v16 c0_i32_10
  v17

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![4, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1024x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S384x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S4x512x1024_S4x512x1024_0_0_0 : ∀ a, (![0, 0, 0] : Fin 3 → Nat) a + S4x512x1024.size a ≤ S4x512x1024.size a
  h_S4x512x1024 : 0 < S4x512x1024.numel
  reduces_S4x512x1024_S4x1024 : S4x512x1024.Reduces [1] S4x1024
  bcast_S4x4096_S4x4096x1_0_1 : S4x4096.BroadcastsInDim S4x4096x1 (![0, 1] : Fin 2 → Fin S4x4096x1.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  bcast_S4x4096x1_S4x4096x128_0_1_2 : S4x4096x1.BroadcastsInDim S4x4096x128 (![0, 1, 2] : Fin 3 → Fin S4x4096x128.rank)
  bcast_S_S4x4096x128 : S_.BroadcastsInDim S4x4096x128 (![] : Fin 0 → Fin S4x4096x128.rank)
  bcast_S4x4096x128_S4x1x4096x128_0_2_3 : S4x4096x128.BroadcastsInDim S4x1x4096x128 (![0, 2, 3] : Fin 3 → Fin S4x1x4096x128.rank)
  concatenates_S4x1x4096x128_S4x1x4096x128_S4x1x4096x128_S4x3x4096x128_d1 : Shape.Concatenates [S4x1x4096x128, S4x1x4096x128, S4x1x4096x128] S4x3x4096x128 1
  shapeCasts_S4x3x4096x128_S4x4096x384 : S4x3x4096x128.ShapeCasts S4x4096x384
  transposes_S128x384_S384x128_1_0 : S128x384.Transposes [1, 0] S384x128
  inb_S1x1024x384_S1x1024x384_0_0_0 : ∀ a, (![0, 0, 0] : Fin 3 → Nat) a + S1x1024x384.size a ≤ S1x1024x384.size a
  h_S1x1024x384 : 0 < S1x1024x384.numel
  shapeCasts_S1x1024x384_S1024x384 : S1x1024x384.ShapeCasts S1024x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  dot_S1024x2048_S2048x128_S1024x128_1_0_0_1_n_n_wf : DotDims.WF S1024x2048 S2048x128 S1024x128 [1] [0] [0] [1] [] []
  dot_S1024x384_S384x128_S1024x128_1_0_0_1_n_n_wf : DotDims.WF S1024x384 S384x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S4x4096x4096.size a
  hwx0_0 : ∀ i : grid0.Coords, EltTy.bits .f32 = 32 ∨ (Rect.block (s := S4x4096x4096) S4x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024.size a ≤ S4x4096.size a
  hwx0_1 : ∀ i : grid0.Coords, EltTy.bits .f32 = 32 ∨ (Rect.block (s := S4x4096) S4x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S4x4096x4096.size a
  hwx1_0 : ∀ i : grid1.Coords, EltTy.bits .f32 = 32 ∨ (Rect.block (s := S4x4096x4096) S1x1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x4096x128.size a
  hwx1_1 : ∀ i : grid1.Coords, EltTy.bits .f32 = 32 ∨ (Rect.block (s := S4x4096x128) S1x2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S4x4096x128.size a
  hwx1_2 : ∀ i : grid1.Coords, EltTy.bits .f32 = 32 ∨ (Rect.block (s := S4x4096x128) S1x1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x2048.size a ≤ S4x4096x4096.size a
  hwx2_0 : ∀ i : grid2.Coords, EltTy.bits .f32 = 32 ∨ (Rect.block (s := S4x4096x4096) S1x1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x128.size a ≤ S4x4096x128.size a
  hwx2_1 : ∀ i : grid2.Coords, EltTy.bits .f32 = 32 ∨ (Rect.block (s := S4x4096x128) S1x2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x128.size a ≤ S4x4096x128.size a
  hwx2_2 : ∀ i : grid2.Coords, EltTy.bits .f32 = 32 ∨ (Rect.block (s := S4x4096x128) S1x1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x384.size a ≤ S4x4096x384.size a
  hwx3_0 : ∀ i : grid3.Coords, EltTy.bits .f32 = 32 ∨ (Rect.block (s := S4x4096x384) S1x1024x384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S384x128.size a ≤ S384x128.size a
  hwx3_1 : ∀ i : grid3.Coords, EltTy.bits .f32 = 32 ∨ (Rect.block (s := S384x128) S384x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024x128.size a ≤ S4x4096x128.size a
  hwx3_2 : ∀ i : grid3.Coords, EltTy.bits .f32 = 32 ∨ (Rect.block (s := S4x4096x128) S1x1024x128.size (cc3_transform_2 i) (hinb3_2 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x384_S384x128_S1024x128_1_0_0_1_n_n : DotDims S1024x384 S384x128 S1024x128 where
  lhsContracting := [1]
  rhsContracting := [0]
  lhsNonContracting := [0]
  rhsNonContracting := [1]
  lhsBatch := []
  rhsBatch := []
  wf := dot_S1024x384_S384x128_S1024x128_1_0_0_1_n_n_wf

abbrev win0_0 : Pipeline.Window sig grid0 :=
  Pipeline.Window.ofSpec (Memref.whole main_arg1) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S1x1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v23) S1x1024x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S384x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x1024x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4x4096x128 : Shape := ⟨3, ![4, 4096, 128]⟩
abbrev S4x4096x4096 : Shape := ⟨3, ![4, 4096, 4096]⟩
abbrev S128x384 : Shape := ⟨2, ![128, 384]⟩
abbrev S_ : Shape := ⟨0, ![]⟩
abbrev S4x4096 : Shape := ⟨2, ![4, 4096]⟩
abbrev S4x4096x1 : Shape := ⟨3, ![4, 4096, 1]⟩
abbrev S4x1x4096x128 : Shape := ⟨4, ![4, 1, 4096, 128]⟩
abbrev S4x3x4096x128 : Shape := ⟨4, ![4, 3, 4096, 128]⟩
abbrev S4x4096x384 : Shape := ⟨3, ![4, 4096, 384]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S128x384, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x128, .f32⟩
  | .hbm, ⟨7, _⟩ => ⟨S4x4096x128, .f32⟩
  | .hbm, ⟨8, _⟩ => ⟨S4x4096x128, .f32⟩
  | .hbm, ⟨9, _⟩ => ⟨S4x4096x128, .f32⟩
  | .hbm, ⟨10, _⟩ => ⟨S_, .f32⟩
  | .hbm, ⟨11, _⟩ => ⟨S4x4096x128, .f32⟩
  | .hbm, ⟨12, _⟩ => ⟨S4x4096x128, .f32⟩
  | .hbm, ⟨13, _⟩ => ⟨S4x4096x128, .f32⟩
  | .hbm, ⟨14, _⟩ => ⟨S4x4096x128, .f32⟩
  | .hbm, ⟨15, _⟩ => ⟨S4x4096x128, .f32⟩
  | .hbm, ⟨16, _⟩ => ⟨S4x4096x128, .f32⟩
  | .hbm, ⟨17, _⟩ => ⟨S4x4096x128, .f32⟩
  | .hbm, ⟨18, _⟩ => ⟨S_, .f32⟩
  | .hbm, ⟨19, _⟩ => ⟨S4x4096x128, .f32⟩
  | .hbm, ⟨20, _⟩ => ⟨S4x4096x128, .f32⟩
  | .hbm, ⟨21, _⟩ => ⟨S4x4096x128, .f32⟩
  | .hbm, ⟨22, _⟩ => ⟨S_, .f32⟩
  | .hbm, ⟨23, _⟩ => ⟨S4x4096x128, .f32⟩
  | .hbm, ⟨24, _⟩ => ⟨S4x4096x128, .f32⟩
  | .hbm, ⟨25, _⟩ => ⟨S4x4096x128, .f32⟩
  | .hbm, ⟨26, _⟩ => ⟨S4x1x4096x128, .f32⟩
  | .hbm, ⟨27, _⟩ => ⟨S4x1x4096x128, .f32⟩
  | .hbm, ⟨28, _⟩ => ⟨S4x1x4096x128, .f32⟩
  | .hbm, ⟨29, _⟩ => ⟨S4x3x4096x128, .f32⟩
  | .hbm, ⟨30, _⟩ => ⟨S4x4096x384, .f32⟩
  | .hbm, ⟨31, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]

class Facts₀ : Prop where
  reducesTo_S4x4096x4096_S4x4096_d1 : S4x4096x4096.ReducesTo [1] S4x4096
  h_S_ : 0 < S_.numel
  bcast_S4x4096_S4x4096x1_0_1 : S4x4096.BroadcastsInDim S4x4096x1 (![0, 1] : Fin 2 → Fin S4x4096x1.rank)
  bcast_S4x4096x1_S4x4096x128_0_1_2 : S4x4096x1.BroadcastsInDim S4x4096x128 (![0, 1, 2] : Fin 3 → Fin S4x4096x128.rank)
  bcast_S_S4x4096x128 : S_.BroadcastsInDim S4x4096x128 (![] : Fin 0 → Fin S4x4096x128.rank)
  bcast_S4x4096x128_S4x1x4096x128_0_2_3 : S4x4096x128.BroadcastsInDim S4x1x4096x128 (![0, 2, 3] : Fin 3 → Fin S4x1x4096x128.rank)
  concatenates_S4x1x4096x128_S4x1x4096x128_S4x1x4096x128_S4x3x4096x128_d1 : Shape.Concatenates [S4x1x4096x128, S4x1x4096x128, S4x1x4096x128] S4x3x4096x128 1
  shapeCasts_S4x3x4096x128_S4x4096x384 : S4x3x4096x128.ShapeCasts S4x4096x384
  dot_S4x4096x4096_S4x4096x128_S4x4096x128_2_1_1_2_0_0_wf : DotDims.WF S4x4096x4096 S4x4096x128 S4x4096x128 [2] [1] [1] [2] [0] [0]
  dot_S4x4096x384_S128x384_S4x4096x128_2_1_01_0_n_n_wf : DotDims.WF S4x4096x384 S128x384 S4x4096x128 [2] [1] [0, 1] [0] [] []

variable [Facts₀]

def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf
def dot_S4x4096x384_S128x384_S4x4096x128_2_1_01_0_n_n : DotDims S4x4096x384 S128x384 S4x4096x128 where
  lhsContracting := [2]
  rhsContracting := [1]
  lhsNonContracting := [0, 1]
  rhsNonContracting := [0]
  lhsBatch := []
  rhsBatch := []
  wf := dot_S4x4096x384_S128x384_S4x4096x128_2_1_01_0_n_n_wf

class Facts : Prop extends Facts₀ where

variable [Facts]
-- ==== Proof.KB.R0Runs.lean ====
/- Region 0 (the column sums of the adjacency tensor; grid 4 column tiles x 8 row chunks, t = 8 j + r): what its three control cases share. -/
import proofs.«156192_j47339129536658_1_alg».proof.Proof.Gen.Kernel.Launch
import proofs.«156192_j47339129536658_1_alg».proof.Proof.Gen.Kernel.Skeleton
import proofs.«156192_j47339129536658_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe
open Idealize.SL.RA Idealize.SL.BI
open Idealize.SL.BI.BIBase
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

abbrev VO0_1 : View sig .tc .vmem S4x1024 .f32 := (Memref.whole cc0_stg1_0 : Memref sig .tc .vmem S4x1024 .f32).view
abbrev ms0_0 (t : Fin cfg0.N) : Memref sig .tc .vmem S4x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1024 .f32 := win0_1.stage (cfg0.slots t 1)
abbrev hs0_1 (t : Fin cfg0.N) : (ms0_1 t).IsWhole := hstage0_1 ((cfg0.slots t 1).cast nbuf0_1)

abbrev scM0_0 : Memref sig .tc .vmem S4x1024 .f32 := Memref.whole cc0_scratch0
abbrev VS0_0 : View sig .tc .vmem S4x1024 .f32 := scM0_0.view

abbrev Rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA
  rw [Pipeline.scopedRest_split_of_list spec0 c [cc0_scratch0] (by decide) (by decide)]
  simp only [scM0_0, owns_whole]; try rfl

end Cert.Kernel.Fr

end
-- ==== Proof.KB.R0RunA.lean ====
/- Region 0's body at a column tile's first row chunk: the accumulator is zeroed, then the chunk's column sums are added; the output block is not written. -/
import proofs.«156192_j47339129536658_1_alg».proof.Proof.KB.R0Runs

noncomputable section

namespace Cert.Kernel.Fr

open Idealize.ShloMosaic Idealize.ShloMosaic.TcCoe
open Idealize.SL.RA Idealize.SL.BI
open Idealize.SL.BI.BIBase Idealize.SL.Sem
open Cert.Kernel.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S4x512x1024 .f32) (harg2 : arg2.IsWhole) (arg3 : Memref sig .tc .vmem S4x1024 .f32) (harg3 : arg3.IsWhole) (arg4 : Memref sig .tc .vmem S4x1024 .f32) (harg4 : arg4.IsWhole) (hc0 : cond0_0 i) (hc1 : ¬cond0_1 i)
    (x0 : Vec F S4x512x1024 .f32) :
    Σ' (L1 : List (View.Piece (Elt F) S4x1024 .f32)), { LS0 : List (View.Piece (Elt F) S4x1024 .f32) //
      ∀ (xi1 : Vec F S4x1024 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.KB.R0RunB.lean ====
/- Region 0's body at a middle row chunk: the chunk's column sums are added to the accumulator the chunk before left; the output block is not written. -/
import proofs.«156192_j47339129536658_1_alg».proof.Proof.KB.R0RunA

noncomputable section

namespace Cert.Kernel.Fr

open Idealize.ShloMosaic Idealize.ShloMosaic.TcCoe
open Idealize.SL.RA Idealize.SL.BI
open Idealize.SL.BI.BIBase Idealize.SL.Sem
open Cert.Kernel.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S4x512x1024 .f32) (harg2 : arg2.IsWhole) (arg3 : Memref sig .tc .vmem S4x1024 .f32) (harg3 : arg3.IsWhole) (arg4 : Memref sig .tc .vmem S4x1024 .f32) (harg4 : arg4.IsWhole) (hc0 : ¬cond0_0 i) (hc1 : ¬cond0_1 i)
    (x0 : Vec F S4x512x1024 .f32) (xs0 : Vec F S4x1024 .f32) :
    Σ' (L1 : List (View.Piece (Elt F) S4x1024 .f32)), { LS0 : List (View.Piece (Elt F) S4x1024 .f32) //
      ∀ (xi1 : Vec F S4x1024 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fr

end
-- ==== Proof.KB.R0RunC.lean ====
/- Region 0's body at a column tile's last row chunk: the chunk's column sums are added to the accumulator, and the accumulator is copied to the output block. -/
import proofs.«156192_j47339129536658_1_alg».proof.Proof.KB.R0RunB

noncomputable section

namespace Cert.Kernel.Fr

open Idealize.ShloMosaic Idealize.ShloMosaic.TcCoe
open Idealize.SL.RA Idealize.SL.BI
open Idealize.SL.BI.BIBase Idealize.SL.Sem
open Cert.Kernel.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S4x512x1024 .f32) (harg2 : arg2.IsWhole) (arg3 : Memref sig .tc .vmem S4x1024 .f32) (harg3 : arg3.IsWhole) (arg4 : Memref sig .tc .vmem S4x1024 .f32) (harg4 : arg4.IsWhole) (hc0 : ¬cond0_0 i) (hc1 : cond0_1 i)
    (x0 : Vec F S4x512x1024 .f32) (xs0 : Vec F S4x1024 .f32) :
    Σ' (L1 : List (View.Piece (Elt F) S4x1024 .f32)), { LS0 : List (View.Piece (Elt F) S4x1024 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Fr

end
-- ==== Proof.KB.R0Frame.lean ====
/- Region 0 (the column sums of the adjacency tensor): after point t = 8 j + r the accumulator holds the sums of column tile j over row chunks 0 … r, and at r = 7 the output block is that accumulator. -/
import proofs.«156192_j47339129536658_1_alg».proof.Proof.KB.R0RunC

noncomputable section

namespace Cert.Kernel.Fr

open Idealize.ShloMosaic Idealize.ShloMosaic.TcCoe
open Idealize.SL.RA Idealize.SL.BI
open Idealize.SL.BI.BIBase Idealize.SL.BI.Laws Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (i : grid0.Coords) (arg2 : Memref sig .tc .vmem S4x512x1024 .f32) (harg2 : arg2.IsWhole) (arg3 : Memref sig .tc .vmem S4x1024 .f32) (harg3 : arg3.IsWhole) (arg4 : Memref sig .tc .vmem S4x1024 .f32) (harg4 : arg4.IsWhole)

section FirstChunk
variable (hc0 : cond0_0 i) (hc1 : ¬cond0_1 i) (x0 : Vec F S4x512x1024 .f32)

theorem scover0_A_0 (y : S4x1024.Idx) : ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S4x1024.size (by sl_kernel_rfl) y

def sout0_A_0 : Vec F S4x1024 .f32 :=
  VS0_0.read (Elt F) (VS0_0.writes (Elt F) VS0_0.junk (kernelRun0_A c i arg2 harg2 arg3 harg3 arg4 harg4 hc0 hc1 x0).2.1)

end FirstChunk

section MiddleChunk
variable (hc0 : ¬cond0_0 i) (hc1 : ¬cond0_1 i) (x0 : Vec F S4x512x1024 .f32) (xs0 : Vec F S4x1024 .f32)

theorem scover0_B_0 (y : S4x1024.Idx) : ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S4x1024.size (by sl_kernel_rfl) y

def sout0_B_0 : Vec F S4x1024 .f32 :=
  VS0_0.read (Elt F) (VS0_0.writes (Elt F) VS0_0.junk (kernelRun0_B c i arg2 harg2 arg3 harg3 arg4 harg4 hc0 hc1 x0 xs0).2.1)

end MiddleChunk

section LastChunk
variable (hc0 : ¬cond0_0 i) (hc1 : cond0_1 i) (x0 : Vec F S4x512x1024 .f32) (xs0 : Vec F S4x1024 .f32)

theorem cover0_C_1 (y : S4x1024.Idx) : ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S4x1024.size (by sl_kernel_rfl) y

def out0_C_1 : Vec F S4x1024 .f32 :=
  VO0_1.read (Elt F) (VO0_1.writes (Elt F) VO0_1.junk (kernelRun0_C c i arg2 harg2 arg3 harg3 arg4 harg4 hc0 hc1 x0 xs0).1)

theorem scover0_C_0 (y : S4x1024.Idx) : ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S4x1024.size (by sl_kernel_rfl) y

def sout0_C_0 : Vec F S4x1024 .f32 :=
  VS0_0.read (Elt F) (VS0_0.writes (Elt F) VS0_0.junk (kernelRun0_C c i arg2 harg2 arg3 harg3 arg4 harg4 hc0 hc1 x0 xs0).2.1)

end LastChunk

/-- What each case leaves in (output buffer, accumulator) at point t's memrefs and block; B and C over the accumulator xs0 the chunk before left; before a last chunk the output block is not stored, so its component is a placeholder nothing reads. -/
def pairA0 (t : Fin cfg0.N) (h0 : t.val % 8 = 0) (h1 : ¬t.val % 8 = 7) : Vec F S4x1024 .f32 × Vec F S4x1024 .f32 :=
  (VO0_1.read (Elt F) VO0_1.junk, sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t))
def pairB0 (t : Fin cfg0.N) (h0 : ¬t.val % 8 = 0) (h1 : ¬t.val % 8 = 7) (xs0 : Vec F S4x1024 .f32) : Vec F S4x1024 .f32 × Vec F S4x1024 .f32 :=
  (VO0_1.read (Elt F) VO0_1.junk, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) xs0)
def pairC0 (t : Fin cfg0.N) (h0 : ¬t.val % 8 = 0) (h1 : t.val % 8 = 7) (xs0 : Vec F S4x1024 .f32) : Vec F S4x1024 .f32 × Vec F S4x1024 .f32 :=
  (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) xs0, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) xs0)

/-- The pair after the body at point n, by recursion on n: each point's case run over what the point before left. -/
def outsAt0 : (n : ℕ) → n < cfg0.N → Vec F S4x1024 .f32 × Vec F S4x1024 .f32
  | 0, hn => pairA0 V c ⟨0, hn⟩ (Nat.zero_mod _) (by show ¬0 % 8 = 7; decide)
  | n + 1, hn =>
    if h0 : (n + 1) % 8 = 0 then pairA0 V c ⟨n + 1, hn⟩ h0 (fun h1 => by have h1' : (n + 1) % 8 = 7 := h1; omega)
    else if h1 : (n + 1) % 8 = 7 then pairC0 V c ⟨n + 1, hn⟩ h0 h1 (outsAt0 n (Nat.lt_of_succ_lt hn)).2
    else pairB0 V c ⟨n + 1, hn⟩ h0 h1 (outsAt0 n (Nat.lt_of_succ_lt hn)).2

theorem outsAt0_A (t : Fin cfg0.N) (h0 : t.val % 8 = 0) (h1 : ¬t.val % 8 = 7) : outsAt0 V c t.val t.isLt = pairA0 V c t h0 h1 := by
  obtain ⟨n, hn⟩ := t
  cases n with
  | zero => rfl
  | succ n => exact dif_pos h0

theorem outsAt0_B (t : Fin cfg0.N) (h0 : ¬t.val % 8 = 0) (h1 : ¬t.val % 8 = 7) :
    outsAt0 V c t.val t.isLt = pairB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem outsAt0_C (t : Fin cfg0.N) (h0 : ¬t.val % 8 = 0) (h1 : t.val % 8 = 7) :
    outsAt0 V c t.val t.isLt = pairC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-- The invariant before position n: nothing known at the entry, afterwards the accumulator holds what point n - 1 left. -/
def PhiS0 : (n : ℕ) → n ≤ cfg0.N → sProp 𝕄
  | 0, _ => Pipeline.ΦA spec0 c
  | n + 1, hn => iprop(iprop(owns (c : Thread nD τ) scM0_0 fullShare ((outsAt0 V c n hn).2) ∗ Rest0 (F := F) c) ∗ (∃ r, prngReg c r))

theorem PhiS0_zero (n : ℕ) (h : n ≤ cfg0.N) (hz : n = 0) : PhiS0 V c n h = Pipeline.ΦA spec0 c := by
  subst hz; rfl

theorem PhiS0_pos (n : ℕ) (h : n ≤ cfg0.N) (hz : n ≠ 0) :
    PhiS0 V c n h = iprop(iprop(owns (c : Thread nD τ) scM0_0 fullShare ((outsAt0 V c (n - 1) (by omega)).2) ∗ Rest0 (F := F) c) ∗ (∃ r, prngReg c r)) := by
  cases n with
  | zero => exact absurd rfl hz
  | succ n => rfl

def dat0 : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (w : Fin cfg0.W) : (dat0 V c).A w = V c (Pipeline.arrRef spec0 w) := rfl
theorem share0 (w : Fin cfg0.W) : (dat0 V c).share w = fullShare := (dat0 V c).share_full (fun _ => rfl) w
theorem owed0 (t : Fin (cfg0.N + 1)) : (dat0 V c).owed t = 0 := rfl
theorem after0_1 (t : Fin cfg0.N) : (dat0 V c).after 1 t = (outsAt0 V c t.val t.isLt).1 := rfl

theorem before0_0 (t : Fin cfg0.N) (d) : (dat0 V c).before 0 t d = iblk0 V c 0 t :=
  before0_0_of V (dat0 V c) rfl (fun _ => rfl) t d

/-- At any position the invariant can forget the accumulator's contents. -/
theorem Phi_out0 (t : Fin (cfg0.N + 1)) : (dat0 V c).Φ t ⊢ (Pipeline.ΦA spec0 c : sProp 𝕄) := by
  rw [show (dat0 V c).Φ t = PhiS0 V c t.val (Nat.le_of_lt_succ t.isLt) from rfl]
  by_cases ht : t.val = 0
  · rw [PhiS0_zero V c _ _ ht]; try exact .rfl
  · rw [PhiS0_pos V c _ _ ht, PhiA0_eq]
    iintro ⟨⟨HS0, HR⟩, Hg⟩
    isplitl [HS0 HR]
    · isplitl [HS0]
      · iexists _; iexact HS0
      iexact HR
    iexact Hg

theorem hin0 : (Pipeline.ΦA spec0 c : sProp 𝕄) ⊢ (dat0 V c).Φ 0 := .rfl
theorem hout0 : (dat0 V c).Φ (Fin.last cfg0.N) ⊢ (Pipeline.ΦA spec0 c : sProp 𝕄) := Phi_out0 V c _

def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms pick the case; the invariant lends the accumulator and takes it back at this point's contents. -/
theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl,
    show (dat0 V c).Φ t.succ = iprop(iprop(owns (c : Thread nD τ) scM0_0 fullShare ((outsAt0 V c t.val t.isLt).2) ∗ Rest0 (F := F) c) ∗ (∃ r, prngReg c r)) from rfl,
    show (dat0 V c).leavesExact 0 t = owns (c : Thread nD τ) (ms0_0 t) fullShare (iblk0 V c 0 t) from by
      unfold Dat.leavesExact; rw [liveAt0_0 t] <;> rfl]
  by_cases h0 : t.val % 8 = 0
  · have h1 : ¬t.val % 8 = 7 := by omega
    have hA0 := (hcond0_0 t).mpr h0
    have hA1 : ¬cond0_1 (grid0.coords t) := fun h => h1 ((hcond0_1 t).mp h)
    rw [Dat.leavesExact_idle (dat0 V c) 1 t (idleAt0_1_A t hA0 hA1) (noFlush0_1_A t hA0 hA1), outsAt0_A V c t h0 h1]
    unfold pairA0 sout0_A_0; dsimp only
    refine (sep_mono (Phi_out0 V c t.castSucc) .rfl).trans ?_
    rw [PhiA0_eq]
    iintro ⟨⟨⟨HS0, HR⟩, Hg⟩, Ho, ⟨%d0, H0⟩, ⟨%d1, H1⟩⟩
    iapply ((kernelRun0_A c (grid0.coords t) _ _ _ _ _ _ hA0 hA1 (iblk0 V c 0 t)).2.2 _ Set.univ _)
    isplitl [H0]; · iexact H0
    isplitl [H1]; · iexact H1
    isplitl [HS0]; · iexact HS0
    iintro ⟨H0, H1, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _)
        iexact HR
      iexact Hg
    isplitl [Ho]; · iexact Ho
    isplitl [H0]; · iexact H0
    iexists _; iexact H1
  · have hB0 : ¬cond0_0 (grid0.coords t) := fun h => h0 ((hcond0_0 t).mp h)
    have hz : t.val ≠ 0 := fun h => h0 (by rw [h])
    rw [show (dat0 V c).Φ t.castSucc = PhiS0 V c t.val (Nat.le_of_lt t.isLt) from rfl, PhiS0_pos V c _ _ hz]
    by_cases h1 : t.val % 8 = 7
    · have hC1 := (hcond0_1 t).mpr h1
      rw [show (dat0 V c).leavesExact 1 t = owns (c : Thread nD τ) (ms0_1 t) fullShare ((outsAt0 V c t.val t.isLt).1) from by
        unfold Dat.leavesExact; rw [liveAt0_1_C t hB0 hC1] <;> rfl, outsAt0_C V c t h0 h1]
      unfold pairC0 out0_C_1 sout0_C_0; dsimp only
      iintro ⟨⟨⟨HS0, HR⟩, Hg⟩, Ho, ⟨%d0, H0⟩, ⟨%d1, H1⟩⟩
      iapply ((kernelRun0_C c (grid0.coords t) _ _ _ _ _ _ hB0 hC1 (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · have hB1 : ¬cond0_1 (grid0.coords t) := fun h => h1 ((hcond0_1 t).mp h)
      rw [Dat.leavesExact_idle (dat0 V c) 1 t (idleAt0_1_B t hB0 hB1) (noFlush0_1_B t hB0 hB1), outsAt0_B V c t h0 h1]
      unfold pairB0 sout0_B_0; dsimp only
      iintro ⟨⟨⟨HS0, HR⟩, Hg⟩, Ho, ⟨%d0, H0⟩, ⟨%d1, H1⟩⟩
      iapply ((kernelRun0_B c (grid0.coords t) _ _ _ _ _ _ hB0 hB1 (iblk0 V c 0 t) _).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _)
          iexact HR
        iexact Hg
      isplitl [Ho]; · iexact Ho
      isplitl [H0]; · iexact H0
      iexists _; iexact H1

theorem body_obligation0 : BodyObligation (dat0 (F := F) V c) (defs₀ (F := F)) Variants.none () Set.univ := fun t => by
  rw [bigSep_W0, bigSep_W0]
  exact sound_body0 V c t

end Cert.Kernel.Fr

end
-- ==== Proof.KB.R1Runs.lean ====
/- Region 1 (a batch's adjacency rows times its feature columns; grid 4 batches x 4 row tiles x 2 reduction chunks, t = 8 b + 2 j + r): what its two control cases share. -/
import proofs.«156192_j47339129536658_1_alg».proof.Proof.Gen.Kernel.Launch
import proofs.«156192_j47339129536658_1_alg».proof.Proof.Gen.Kernel.Skeleton
import proofs.«156192_j47339129536658_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe
open Idealize.SL.RA Idealize.SL.BI
open Idealize.SL.BI.BIBase
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem liveAt1_2_B : ∀ t : Fin cfg1.N, ¬cond1_0 (grid1.coords t) → cond1_1 (grid1.coords t) → cfg1.idle 2 (grid1.coords t) = false := by decide +kernel

abbrev VO1_2 : View sig .tc .vmem S1x1024x128 .f32 := (Memref.whole cc1_stg2_0 : Memref sig .tc .vmem S1x1024x128 .f32).view
abbrev ms1_0 (t : Fin cfg1.N) : Memref sig .tc .vmem S1x1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .f32 := win1_2.stage (cfg1.slots t 2)
abbrev hs1_2 (t : Fin cfg1.N) : (ms1_2 t).IsWhole := hstage1_2 ((cfg1.slots t 2).cast nbuf1_2)

abbrev scM1_0 : Memref sig .tc .vmem S1024x128 .f32 := Memref.whole cc1_scratch0
abbrev VS1_0 : View sig .tc .vmem S1024x128 .f32 := scM1_0.view

abbrev Rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [scM1_0, owns_whole]; try rfl

end Cert.Kernel.Fr

end
-- ==== Proof.KB.R1RunA.lean ====
/- Region 1's body at a row tile's first reduction chunk: the accumulator is zeroed, then the chunk's block product is added; the output block is not written. -/
import proofs.«156192_j47339129536658_1_alg».proof.Proof.KB.R1Runs

noncomputable section

namespace Cert.Kernel.Fr

open Idealize.ShloMosaic Idealize.ShloMosaic.TcCoe
open Idealize.SL.RA Idealize.SL.BI
open Idealize.SL.BI.BIBase Idealize.SL.Sem
open Cert.Kernel.Gen

variable {F : FTy → Type} [FloatOps F]

local notation "𝕄" => MT nD τ sig Unit (Elt F) ℕ (UR sig nD τ) ℕ

set_option maxHeartbeats 1000000 in
/-- The pieces the body's stores leave, and the body's run on whole memrefs. -/
noncomputable def kernelRun1_A (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S1024x128 .f32) (harg6 : arg6.IsWhole) (hc0 : cond1_0 i) (hc1 : ¬cond1_1 i)
    (x0 : Vec F S1x1024x2048 .f32) (x1 : Vec F S1x2048x128 .f32) :
    Σ' (L2 : List (View.Piece (Elt F) S1x1024x128 .f32)), { LS0 : List (View.Piece (Elt F) S1024x128 .f32) //
      ∀ (xi2 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.KB.R1RunB.lean ====
/- Region 1's body at a row tile's last reduction chunk: the chunk's block product is added to the accumulator the chunk before left, and the accumulator is copied to the output block. -/
import proofs.«156192_j47339129536658_1_alg».proof.Proof.KB.R1RunA

noncomputable section

namespace Cert.Kernel.Fr

open Idealize.ShloMosaic Idealize.ShloMosaic.TcCoe
open Idealize.SL.RA Idealize.SL.BI
open Idealize.SL.BI.BIBase Idealize.SL.Sem
open Cert.Kernel.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S1024x128 .f32) (harg6 : arg6.IsWhole) (hc0 : ¬cond1_0 i) (hc1 : cond1_1 i)
    (x0 : Vec F S1x1024x2048 .f32) (x1 : Vec F S1x2048x128 .f32) (xs0 : Vec F S1024x128 .f32) :
    Σ' (L2 : List (View.Piece (Elt F) S1x1024x128 .f32)), { LS0 : List (View.Piece (Elt F) S1024x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Fr

end
-- ==== Proof.KB.R1Frame.lean ====
/- Region 1 (a batch's adjacency rows times its feature columns): after point t = 8 b + 2 j + r the accumulator holds the products of row tile j over reduction chunks 0 … r, and at r = 1 the output block is that accumulator. -/
import proofs.«156192_j47339129536658_1_alg».proof.Proof.KB.R1RunB

noncomputable section

namespace Cert.Kernel.Fr

open Idealize.ShloMosaic Idealize.ShloMosaic.TcCoe
open Idealize.SL.RA Idealize.SL.BI
open Idealize.SL.BI.BIBase Idealize.SL.BI.Laws Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S1024x128 .f32) (harg6 : arg6.IsWhole)

section FirstChunk
variable (hc0 : cond1_0 i) (hc1 : ¬cond1_1 i) (x0 : Vec F S1x1024x2048 .f32) (x1 : Vec F S1x2048x128 .f32)

theorem scover1_A_0 (y : S1024x128.Idx) : ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x128.size (by sl_kernel_rfl) y

def sout1_A_0 : Vec F S1024x128 .f32 :=
  VS1_0.read (Elt F) (VS1_0.writes (Elt F) VS1_0.junk (kernelRun1_A c i arg3 harg3 arg4 harg4 arg5 harg5 arg6 harg6 hc0 hc1 x0 x1).2.1)

end FirstChunk

section LastChunk
variable (hc0 : ¬cond1_0 i) (hc1 : cond1_1 i) (x0 : Vec F S1x1024x2048 .f32) (x1 : Vec F S1x2048x128 .f32) (xs0 : Vec F S1024x128 .f32)

theorem cover1_B_2 (y : S1x1024x128.Idx) : ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S1x1024x128.size (by sl_kernel_rfl) y

def out1_B_2 : Vec F S1x1024x128 .f32 :=
  VO1_2.read (Elt F) (VO1_2.writes (Elt F) VO1_2.junk (kernelRun1_B c i arg3 harg3 arg4 harg4 arg5 harg5 arg6 harg6 hc0 hc1 x0 x1 xs0).1)

theorem scover1_B_0 (y : S1024x128.Idx) : ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x128.size (by sl_kernel_rfl) y

def sout1_B_0 : Vec F S1024x128 .f32 :=
  VS1_0.read (Elt F) (VS1_0.writes (Elt F) VS1_0.junk (kernelRun1_B c i arg3 harg3 arg4 harg4 arg5 harg5 arg6 harg6 hc0 hc1 x0 x1 xs0).2.1)

end LastChunk

/-- What a first chunk leaves in (output buffer, accumulator) at point t's memrefs and blocks; the output block is not stored there, so its component is a placeholder nothing reads. -/
def pairA1 (t : Fin cfg1.N) (h0 : t.val % 2 = 0) : Vec F S1x1024x128 .f32 × Vec F S1024x128 .f32 :=
  (VO1_2.read (Elt F) VO1_2.junk,
   sout1_A_0 c (grid1.coords t) (ms1_0 t) (hs1_0 t) (ms1_1 t) (hs1_1 t) (ms1_2 t) (hs1_2 t) scM1_0 (Memref.isWhole_whole _) ((hcond1_0 t).mpr h0) (fun h => Nat.mod_two_ne_one.mpr h0 ((hcond1_1 t).mp h)) (iblk1 V c 0 t) (iblk1 V c 1 t))

/-- What a last chunk leaves, over the accumulator xs0 the chunk before left. -/
def pairB1 (t : Fin cfg1.N) (h0 : ¬t.val % 2 = 0) (xs0 : Vec F S1024x128 .f32) : Vec F S1x1024x128 .f32 × Vec F S1024x128 .f32 :=
  (out1_B_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr (Nat.mod_two_ne_zero.mp h0)) (iblk1 V c 0 t) (iblk1 V c 1 t) xs0,
   sout1_B_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr (Nat.mod_two_ne_zero.mp h0)) (iblk1 V c 0 t) (iblk1 V c 1 t) xs0)

/-- The pair after the body at point n, by recursion on n: each point's case run over what the point before left. -/
def outsAt1 : (n : ℕ) → n < cfg1.N → Vec F S1x1024x128 .f32 × Vec F S1024x128 .f32
  | 0, hn => pairA1 V c ⟨0, hn⟩ (Nat.zero_mod _)
  | n + 1, hn =>
    if h0 : (n + 1) % 2 = 0 then pairA1 V c ⟨n + 1, hn⟩ h0
    else pairB1 V c ⟨n + 1, hn⟩ h0 (outsAt1 n (Nat.lt_of_succ_lt hn)).2

theorem outsAt1_A (t : Fin cfg1.N) (h0 : t.val % 2 = 0) : outsAt1 V c t.val t.isLt = pairA1 V c t h0 := by
  obtain ⟨n, hn⟩ := t
  cases n with
  | zero => rfl
  | succ n => exact dif_pos h0

theorem outsAt1_B (t : Fin cfg1.N) (h0 : ¬t.val % 2 = 0) :
    outsAt1 V c t.val t.isLt = pairB1 V c t h0 (outsAt1 V c (t.val - 1) (Nat.lt_of_le_of_lt (Nat.sub_le _ _) t.isLt)).2 := by
  obtain ⟨n, hn⟩ := t
  cases n with
  | zero => exact absurd (Nat.zero_mod _) h0
  | succ n => exact dif_neg h0

/-- The invariant before position n: nothing known at the entry, afterwards the accumulator holds what point n - 1 left. -/
def PhiS1 : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (n : ℕ) (h : n ≤ cfg1.N) (hz : n = 0) : PhiS1 V c n h = Pipeline.ΦA spec1 c := by
  subst hz; rfl

theorem PhiS1_pos (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (w : Fin cfg1.W) : (dat1 V c).A w = V c (Pipeline.arrRef spec1 w) := rfl
theorem share1 (w : Fin cfg1.W) : (dat1 V c).share w = fullShare := (dat1 V c).share_full (fun _ => rfl) w
theorem owed1 (t : Fin (cfg1.N + 1)) : (dat1 V c).owed t = 0 := rfl
theorem after1_2 (t : Fin cfg1.N) : (dat1 V c).after 2 t = (outsAt1 V c t.val t.isLt).1 := rfl

theorem before1_0 (t : Fin cfg1.N) (d) : (dat1 V c).before 0 t d = iblk1 V c 0 t :=
  before1_0_of V (dat1 V c) rfl (fun _ => rfl) t d
theorem before1_1 (t : Fin cfg1.N) (d) : (dat1 V c).before 1 t d = iblk1 V c 1 t :=
  before1_1_of V (dat1 V c) rfl (fun _ => rfl) t d

/-- At any position the invariant can forget the accumulator's contents. -/
theorem Phi_out1 (t : Fin (cfg1.N + 1)) : (dat1 V c).Φ t ⊢ (Pipeline.ΦA spec1 c : sProp 𝕄) := by
  rw [show (dat1 V c).Φ t = PhiS1 V c t.val (Nat.le_of_lt_succ t.isLt) from rfl]
  by_cases ht : t.val = 0
  · rw [PhiS1_zero V c _ _ ht]; try exact .rfl
  · rw [PhiS1_pos V c _ _ ht, PhiA1_eq]
    iintro ⟨⟨HS0, HR⟩, Hg⟩
    isplitl [HS0 HR]
    · isplitl [HS0]
      · iexists _; iexact HS0
      iexact HR
    iexact Hg

theorem hin1 : (Pipeline.ΦA spec1 c : sProp 𝕄) ⊢ (dat1 V c).Φ 0 := .rfl
theorem hout1 : (dat1 V c).Φ (Fin.last cfg1.N) ⊢ (Pipeline.ΦA spec1 c : sProp 𝕄) := Phi_out1 V c _

def bodyPre1 (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms pick the case; the invariant lends the accumulator and takes it back at this point's contents. -/
theorem sound_body1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = iprop(iprop(owns (c : Thread nD τ) scM1_0 fullShare ((outsAt1 V c t.val t.isLt).2) ∗ Rest1 (F := F) c) ∗ (∃ r, prngReg c r)) from rfl,
    show (dat1 V c).leavesExact 0 t = owns (c : Thread nD τ) (ms1_0 t) fullShare (iblk1 V c 0 t) from by
      unfold Dat.leavesExact; rw [liveAt1_0 t] <;> rfl,
    show (dat1 V c).leavesExact 1 t = owns (c : Thread nD τ) (ms1_1 t) fullShare (iblk1 V c 1 t) from by
      unfold Dat.leavesExact; rw [liveAt1_1 t] <;> rfl]
  by_cases h0 : t.val % 2 = 0
  · have hA0 := (hcond1_0 t).mpr h0
    have hA1 : ¬cond1_1 (grid1.coords t) := fun h => Nat.mod_two_ne_one.mpr h0 ((hcond1_1 t).mp h)
    rw [Dat.leavesExact_idle (dat1 V c) 2 t (idleAt1_2_A t hA0 hA1) (noFlush1_2_A t hA0 hA1), outsAt1_A V c t h0]
    unfold pairA1 sout1_A_0; dsimp only
    refine (sep_mono (Phi_out1 V c t.castSucc) .rfl).trans ?_
    rw [PhiA1_eq]
    iintro ⟨⟨⟨HS0, HR⟩, Hg⟩, Ho, ⟨%d0, H0⟩, ⟨%d1, H1⟩, ⟨%d2, H2⟩⟩
    iapply ((kernelRun1_A c (grid1.coords t) _ _ _ _ _ _ _ _ hA0 hA1 (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _)
        iexact HR
      iexact Hg
    isplitl [Ho]; · iexact Ho
    isplitl [H0]; · iexact H0
    isplitl [H1]; · iexact H1
    iexists _; iexact H2
  · have hB0 : ¬cond1_0 (grid1.coords t) := fun h => h0 ((hcond1_0 t).mp h)
    have hB1 := (hcond1_1 t).mpr (Nat.mod_two_ne_zero.mp h0)
    have hz : t.val ≠ 0 := fun h => h0 (by rw [h])
    rw [show (dat1 V c).leavesExact 2 t = owns (c : Thread nD τ) (ms1_2 t) fullShare ((outsAt1 V c t.val t.isLt).1) from by
      unfold Dat.leavesExact; rw [liveAt1_2_B t hB0 hB1] <;> rfl, outsAt1_B V c t h0]
    unfold pairB1 out1_B_2 sout1_B_0; dsimp only
    rw [show (dat1 V c).Φ t.castSucc = PhiS1 V c t.val (Nat.le_of_lt t.isLt) from rfl, PhiS1_pos V c _ _ hz]
    iintro ⟨⟨⟨HS0, HR⟩, Hg⟩, Ho, ⟨%d0, H0⟩, ⟨%d1, H1⟩, ⟨%d2, H2⟩⟩
    iapply ((kernelRun1_B c (grid1.coords t) _ _ _ _ _ _ _ _ hB0 hB1 (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_B_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _)

theorem body_obligation1 : BodyObligation (dat1 (F := F) V c) (defs₀ (F := F)) Variants.none () Set.univ := fun t => by
  rw [bigSep_W1, bigSep_W1]
  exact sound_body1 V c t

end Cert.Kernel.Fr

end
-- ==== Proof.KB.R2Runs.lean ====
/- Region 2 (a batch's adjacency rows times its first-term columns; grid 4 batches x 4 row tiles x 2 reduction chunks, t = 8 b + 2 j + r): what its two control cases share. -/
import proofs.«156192_j47339129536658_1_alg».proof.Proof.Gen.Kernel.Launch
import proofs.«156192_j47339129536658_1_alg».proof.Proof.Gen.Kernel.Skeleton
import proofs.«156192_j47339129536658_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe
open Idealize.SL.RA Idealize.SL.BI
open Idealize.SL.BI.BIBase
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)

abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem liveAt2_2_B : ∀ t : Fin cfg2.N, ¬cond2_0 (grid2.coords t) → cond2_1 (grid2.coords t) → cfg2.idle 2 (grid2.coords t) = false := by decide +kernel

abbrev VO2_2 : View sig .tc .vmem S1x1024x128 .f32 := (Memref.whole cc2_stg2_0 : Memref sig .tc .vmem S1x1024x128 .f32).view
abbrev ms2_0 (t : Fin cfg2.N) : Memref sig .tc .vmem S1x1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024x128 .f32 := win2_2.stage (cfg2.slots t 2)
abbrev hs2_2 (t : Fin cfg2.N) : (ms2_2 t).IsWhole := hstage2_2 ((cfg2.slots t 2).cast nbuf2_2)

abbrev scM2_0 : Memref sig .tc .vmem S1024x128 .f32 := Memref.whole cc2_scratch0
abbrev VS2_0 : View sig .tc .vmem S1024x128 .f32 := scM2_0.view

abbrev Rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ Rest2 (F := F) c) ∗ (∃ r, prngReg c r)) := by
  unfold Pipeline.ΦA
  rw [Pipeline.scopedRest_split_of_list spec2 c [cc2_scratch0] (by decide) (by decide)]
  simp only [scM2_0, owns_whole]; try rfl

end Cert.Kernel.Fr

end
-- ==== Proof.KB.R2RunA.lean ====
/- Region 2's body at a row tile's first reduction chunk: the accumulator is zeroed, then the chunk's block product is added; the output block is not written. -/
import proofs.«156192_j47339129536658_1_alg».proof.Proof.KB.R2Runs

noncomputable section

namespace Cert.Kernel.Fr

open Idealize.ShloMosaic Idealize.ShloMosaic.TcCoe
open Idealize.SL.RA Idealize.SL.BI
open Idealize.SL.BI.BIBase Idealize.SL.Sem
open Cert.Kernel.Gen

variable {F : FTy → Type} [FloatOps F]

local notation "𝕄" => MT nD τ sig Unit (Elt F) ℕ (UR sig nD τ) ℕ

set_option maxHeartbeats 1000000 in
/-- The pieces the body's stores leave, and the body's run on whole memrefs. -/
noncomputable def kernelRun2_A (c : Dev nD) (i : grid2.Coords) (arg3 : Memref sig .tc .vmem S1x1024x2048 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S1024x128 .f32) (harg6 : arg6.IsWhole) (hc0 : cond2_0 i) (hc1 : ¬cond2_1 i)
    (x0 : Vec F S1x1024x2048 .f32) (x1 : Vec F S1x2048x128 .f32) :
    Σ' (L2 : List (View.Piece (Elt F) S1x1024x128 .f32)), { LS0 : List (View.Piece (Elt F) S1024x128 .f32) //
      ∀ (xi2 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.KB.R2RunB.lean ====
/- Region 2's body at a row tile's last reduction chunk: the chunk's block product is added to the accumulator the chunk before left, and the accumulator is copied to the output block. -/
import proofs.«156192_j47339129536658_1_alg».proof.Proof.KB.R2RunA

noncomputable section

namespace Cert.Kernel.Fr

open Idealize.ShloMosaic Idealize.ShloMosaic.TcCoe
open Idealize.SL.RA Idealize.SL.BI
open Idealize.SL.BI.BIBase Idealize.SL.Sem
open Cert.Kernel.Gen

variable {F : FTy → Type} [FloatOps F]

local notation "𝕄" => MT nD τ sig Unit (Elt F) ℕ (UR sig nD τ) ℕ

set_option maxHeartbeats 1000000 in
noncomputable def kernelRun2_B (c : Dev nD) (i : grid2.Coords) (arg3 : Memref sig .tc .vmem S1x1024x2048 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S1024x128 .f32) (harg6 : arg6.IsWhole) (hc0 : ¬cond2_0 i) (hc1 : cond2_1 i)
    (x0 : Vec F S1x1024x2048 .f32) (x1 : Vec F S1x2048x128 .f32) (xs0 : Vec F S1024x128 .f32) :
    Σ' (L2 : List (View.Piece (Elt F) S1x1024x128 .f32)), { LS0 : List (View.Piece (Elt F) S1024x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Fr

end
-- ==== Proof.KB.R2Frame.lean ====
/- Region 2 (a batch's adjacency rows times its first-term columns): after point t = 8 b + 2 j + r the accumulator holds the products of row tile j over reduction chunks 0 … r, and at r = 1 the output block is that accumulator. -/
import proofs.«156192_j47339129536658_1_alg».proof.Proof.KB.R2RunB

noncomputable section

namespace Cert.Kernel.Fr

open Idealize.ShloMosaic Idealize.ShloMosaic.TcCoe
open Idealize.SL.RA Idealize.SL.BI
open Idealize.SL.BI.BIBase Idealize.SL.BI.Laws Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (i : grid2.Coords) (arg3 : Memref sig .tc .vmem S1x1024x2048 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S1024x128 .f32) (harg6 : arg6.IsWhole)

section FirstChunk
variable (hc0 : cond2_0 i) (hc1 : ¬cond2_1 i) (x0 : Vec F S1x1024x2048 .f32) (x1 : Vec F S1x2048x128 .f32)

theorem scover2_A_0 (y : S1024x128.Idx) : ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S1024x128.size (by sl_kernel_rfl) y

def sout2_A_0 : Vec F S1024x128 .f32 :=
  VS2_0.read (Elt F) (VS2_0.writes (Elt F) VS2_0.junk (kernelRun2_A c i arg3 harg3 arg4 harg4 arg5 harg5 arg6 harg6 hc0 hc1 x0 x1).2.1)

end FirstChunk

section LastChunk
variable (hc0 : ¬cond2_0 i) (hc1 : cond2_1 i) (x0 : Vec F S1x1024x2048 .f32) (x1 : Vec F S1x2048x128 .f32) (xs0 : Vec F S1024x128 .f32)

theorem cover2_B_2 (y : S1x1024x128.Idx) : ∃ pc ∈ (kernelRun2_B c i arg3 harg3 arg4 harg4 arg5 harg5 arg6 harg6 hc0 hc1 x0 x1 xs0).1, y ∈ pc.1.set :=
  View.cover_of_tiledL (kernelRun2_B c i arg3 harg3 arg4 harg4 arg5 harg5 arg6 harg6 hc0 hc1 x0 x1 xs0).1 S1x1024x128.size (by sl_kernel_rfl) y

def out2_B_2 : Vec F S1x1024x128 .f32 :=
  VO2_2.read (Elt F) (VO2_2.writes (Elt F) VO2_2.junk (kernelRun2_B c i arg3 harg3 arg4 harg4 arg5 harg5 arg6 harg6 hc0 hc1 x0 x1 xs0).1)

theorem scover2_B_0 (y : S1024x128.Idx) : ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S1024x128.size (by sl_kernel_rfl) y

def sout2_B_0 : Vec F S1024x128 .f32 :=
  VS2_0.read (Elt F) (VS2_0.writes (Elt F) VS2_0.junk (kernelRun2_B c i arg3 harg3 arg4 harg4 arg5 harg5 arg6 harg6 hc0 hc1 x0 x1 xs0).2.1)

end LastChunk

/-- What a first chunk leaves in (output buffer, accumulator) at point t's memrefs and blocks; the output block is not stored there, so its component is a placeholder nothing reads. -/
def pairA2 (t : Fin cfg2.N) (h0 : t.val % 2 = 0) : Vec F S1x1024x128 .f32 × Vec F S1024x128 .f32 :=
  (VO2_2.read (Elt F) VO2_2.junk,
   sout2_A_0 c (grid2.coords t) (ms2_0 t) (hs2_0 t) (ms2_1 t) (hs2_1 t) (ms2_2 t) (hs2_2 t) scM2_0 (Memref.isWhole_whole _) ((hcond2_0 t).mpr h0) (fun h => Nat.mod_two_ne_one.mpr h0 ((hcond2_1 t).mp h)) (iblk2 V c 0 t) (iblk2 V c 1 t))

/-- What a last chunk leaves, over the accumulator xs0 the chunk before left. -/
def pairB2 (t : Fin cfg2.N) (h0 : ¬t.val % 2 = 0) (xs0 : Vec F S1024x128 .f32) : Vec F S1x1024x128 .f32 × Vec F S1024x128 .f32 :=
  (out2_B_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr (Nat.mod_two_ne_zero.mp h0)) (iblk2 V c 0 t) (iblk2 V c 1 t) xs0,
   sout2_B_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr (Nat.mod_two_ne_zero.mp h0)) (iblk2 V c 0 t) (iblk2 V c 1 t) xs0)

/-- The pair after the body at point n, by recursion on n: each point's case run over what the point before left. -/
def outsAt2 : (n : ℕ) → n < cfg2.N → Vec F S1x1024x128 .f32 × Vec F S1024x128 .f32
  | 0, hn => pairA2 V c ⟨0, hn⟩ (Nat.zero_mod _)
  | n + 1, hn =>
    if h0 : (n + 1) % 2 = 0 then pairA2 V c ⟨n + 1, hn⟩ h0
    else pairB2 V c ⟨n + 1, hn⟩ h0 (outsAt2 n (Nat.lt_of_succ_lt hn)).2

theorem outsAt2_A (t : Fin cfg2.N) (h0 : t.val % 2 = 0) : outsAt2 V c t.val t.isLt = pairA2 V c t h0 := by
  obtain ⟨n, hn⟩ := t
  cases n with
  | zero => rfl
  | succ n => exact dif_pos h0

theorem outsAt2_B (t : Fin cfg2.N) (h0 : ¬t.val % 2 = 0) :
    outsAt2 V c t.val t.isLt = pairB2 V c t h0 (outsAt2 V c (t.val - 1) (Nat.lt_of_le_of_lt (Nat.sub_le _ _) t.isLt)).2 := by
  obtain ⟨n, hn⟩ := t
  cases n with
  | zero => exact absurd (Nat.zero_mod _) h0
  | succ n => exact dif_neg h0

/-- The invariant before position n: nothing known at the entry, afterwards the accumulator holds what point n - 1 left. -/
def PhiS2 : (n : ℕ) → n ≤ cfg2.N → sProp 𝕄
  | 0, _ => Pipeline.ΦA spec2 c
  | n + 1, hn => iprop(iprop(owns (c : Thread nD τ) scM2_0 fullShare ((outsAt2 V c n hn).2) ∗ Rest2 (F := F) c) ∗ (∃ r, prngReg c r))

theorem PhiS2_zero (n : ℕ) (h : n ≤ cfg2.N) (hz : n = 0) : PhiS2 V c n h = Pipeline.ΦA spec2 c := by
  subst hz; rfl

theorem PhiS2_pos (n : ℕ) (h : n ≤ cfg2.N) (hz : n ≠ 0) :
    PhiS2 V c n h = iprop(iprop(owns (c : Thread nD τ) scM2_0 fullShare ((outsAt2 V c (n - 1) (by omega)).2) ∗ Rest2 (F := F) c) ∗ (∃ r, prngReg c r)) := by
  cases n with
  | zero => exact absurd rfl hz
  | succ n => rfl

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (w : Fin cfg2.W) : (dat2 V c).A w = V c (Pipeline.arrRef spec2 w) := rfl
theorem share2 (w : Fin cfg2.W) : (dat2 V c).share w = fullShare := (dat2 V c).share_full (fun _ => rfl) w
theorem owed2 (t : Fin (cfg2.N + 1)) : (dat2 V c).owed t = 0 := rfl
theorem after2_2 (t : Fin cfg2.N) : (dat2 V c).after 2 t = (outsAt2 V c t.val t.isLt).1 := rfl

theorem before2_0 (t : Fin cfg2.N) (d) : (dat2 V c).before 0 t d = iblk2 V c 0 t :=
  before2_0_of V (dat2 V c) rfl (fun _ => rfl) t d
theorem before2_1 (t : Fin cfg2.N) (d) : (dat2 V c).before 1 t d = iblk2 V c 1 t :=
  before2_1_of V (dat2 V c) rfl (fun _ => rfl) t d

/-- At any position the invariant can forget the accumulator's contents. -/
theorem Phi_out2 (t : Fin (cfg2.N + 1)) : (dat2 V c).Φ t ⊢ (Pipeline.ΦA spec2 c : sProp 𝕄) := by
  rw [show (dat2 V c).Φ t = PhiS2 V c t.val (Nat.le_of_lt_succ t.isLt) from rfl]
  by_cases ht : t.val = 0
  · rw [PhiS2_zero V c _ _ ht]; try exact .rfl
  · rw [PhiS2_pos V c _ _ ht, PhiA2_eq]
    iintro ⟨⟨HS0, HR⟩, Hg⟩
    isplitl [HS0 HR]
    · isplitl [HS0]
      · iexists _; iexact HS0
      iexact HR
    iexact Hg

theorem hin2 : (Pipeline.ΦA spec2 c : sProp 𝕄) ⊢ (dat2 V c).Φ 0 := .rfl
theorem hout2 : (dat2 V c).Φ (Fin.last cfg2.N) ⊢ (Pipeline.ΦA spec2 c : sProp 𝕄) := Phi_out2 V c _

def bodyPre2 (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the closed forms pick the case; the invariant lends the accumulator and takes it back at this point's contents. -/
theorem sound_body2 (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    show (dat2 V c).Φ t.succ = iprop(iprop(owns (c : Thread nD τ) scM2_0 fullShare ((outsAt2 V c t.val t.isLt).2) ∗ Rest2 (F := F) c) ∗ (∃ r, prngReg c r)) from rfl,
    show (dat2 V c).leavesExact 0 t = owns (c : Thread nD τ) (ms2_0 t) fullShare (iblk2 V c 0 t) from by
      unfold Dat.leavesExact; rw [liveAt2_0 t] <;> rfl,
    show (dat2 V c).leavesExact 1 t = owns (c : Thread nD τ) (ms2_1 t) fullShare (iblk2 V c 1 t) from by
      unfold Dat.leavesExact; rw [liveAt2_1 t] <;> rfl]
  by_cases h0 : t.val % 2 = 0
  · have hA0 := (hcond2_0 t).mpr h0
    have hA1 : ¬cond2_1 (grid2.coords t) := fun h => Nat.mod_two_ne_one.mpr h0 ((hcond2_1 t).mp h)
    rw [Dat.leavesExact_idle (dat2 V c) 2 t (idleAt2_2_A t hA0 hA1) (noFlush2_2_A t hA0 hA1), outsAt2_A V c t h0]
    unfold pairA2 sout2_A_0; dsimp only
    refine (sep_mono (Phi_out2 V c t.castSucc) .rfl).trans ?_
    rw [PhiA2_eq]
    iintro ⟨⟨⟨HS0, HR⟩, Hg⟩, Ho, ⟨%d0, H0⟩, ⟨%d1, H1⟩, ⟨%d2, H2⟩⟩
    iapply ((kernelRun2_A c (grid2.coords t) _ _ _ _ _ _ _ _ hA0 hA1 (iblk2 V c 0 t) (iblk2 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_A_0 c _ _ _ _ _ _ _ _ _ _ _ _ _)
        iexact HR
      iexact Hg
    isplitl [Ho]; · iexact Ho
    isplitl [H0]; · iexact H0
    isplitl [H1]; · iexact H1
    iexists _; iexact H2
  · have hB0 : ¬cond2_0 (grid2.coords t) := fun h => h0 ((hcond2_0 t).mp h)
    have hB1 := (hcond2_1 t).mpr (Nat.mod_two_ne_zero.mp h0)
    have hz : t.val ≠ 0 := fun h => h0 (by rw [h])
    rw [show (dat2 V c).leavesExact 2 t = owns (c : Thread nD τ) (ms2_2 t) fullShare ((outsAt2 V c t.val t.isLt).1) from by
      unfold Dat.leavesExact; rw [liveAt2_2_B t hB0 hB1] <;> rfl, outsAt2_B V c t h0]
    unfold pairB2 out2_B_2 sout2_B_0; dsimp only
    rw [show (dat2 V c).Φ t.castSucc = PhiS2 V c t.val (Nat.le_of_lt t.isLt) from rfl, PhiS2_pos V c _ _ hz]
    iintro ⟨⟨⟨HS0, HR⟩, Hg⟩, Ho, ⟨%d0, H0⟩, ⟨%d1, H1⟩, ⟨%d2, H2⟩⟩
    iapply ((kernelRun2_B c (grid2.coords t) _ _ _ _ _ _ _ _ hB0 hB1 (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_B_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_B_2 c _ _ _ _ _ _ _ _ _ _ _ _ _ _)

theorem body_obligation2 : BodyObligation (dat2 (F := F) V c) (defs₀ (F := F)) Variants.none () Set.univ := fun t => by
  rw [bigSep_W2, bigSep_W2]
  exact sound_body2 V c t

end Cert.Kernel.Fr

end
-- ==== Proof.KB.R3Frame.lean ====
/- Region 3 (the dense layer: each block of 1024 rows of the stacked features times the whole transposed weight; grid 4 batches x 4 row tiles): one control case, nothing kept between points. -/
import proofs.«156192_j47339129536658_1_alg».proof.Proof.Gen.Kernel.Launch
import proofs.«156192_j47339129536658_1_alg».proof.Proof.Gen.Kernel.Skeleton
import proofs.«156192_j47339129536658_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe
open Idealize.SL.RA Idealize.SL.BI
open Idealize.SL.BI.BIBase Idealize.SL.BI.Laws Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1x1024x384 := Rect.unit (s := S1x1024x384) ![0, 0, 0] S1x1024x384.size inb_S1x1024x384_S1x1024x384_0_0_0
abbrev r3_1 : Rect S384x128 := Rect.unit (s := S384x128) ![0, 0] S384x128.size inb_S384x128_S384x128_0_0
abbrev r3_2 : Rect S1x1024x128 := Rect.unit (s := S1x1024x128) ![0, 0, 0] S1x1024x128.size inb_S1x1024x128_S1x1024x128_0_0_0

def out3_2 (x0 : Vec F S1x1024x384 .f32) (x1 : Vec F S384x128 .f32) : Vec F S1x1024x128 .f32 :=
  View.canon [⟨r3_2, k3_pay1 (View.ld x0 r3_0) (View.ld x1 r3_1)⟩]

theorem cover3_2 (p0 : Vec F S1x1024x128 .f32) (y : S1x1024x128.Idx) :
    ∃ pc ∈ ([⟨r3_2, p0⟩] : List (View.Piece (Elt F) S1x1024x128 .f32)), y ∈ pc.1.set :=
  View.cover_of_tiled [⟨r3_2, p0⟩] S1x1024x128.size (by rfl) y

set_option maxHeartbeats 1000000 in
theorem sound_kernel3 (c : Dev nD) (E : Set ℕ) (i : grid3.Coords) (arg2 : Memref sig .tc .vmem S1x1024x384 .f32) (harg2 : arg2.IsWhole) (arg3 : Memref sig .tc .vmem S384x128 .f32) (harg3 : arg3.IsWhole) (arg4 : Memref sig .tc .vmem S1x1024x128 .f32) (harg4 : arg4.IsWhole)
    (x0 : Vec F S1x1024x384 .f32) (x1 : Vec F S384x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__linear_kernel i arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl
theorem share3 (c : Dev nD) (w : Fin cfg3.W) : (dat3 V c).share w = fullShare := (dat3 V c).share_full (fun _ => rfl) w
theorem owed3 (c : Dev nD) (t : Fin (cfg3.N + 1)) : (dat3 V c).owed t = 0 := rfl

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := .rfl

end Cert.Kernel.Fr

end
-- ==== Proof.KB.Run.lean ====
/- The launch: @main's seven items (region 0, host stretch, region 1, host stretch, region 2, host stretch, region 3) as segments. The buffer contents at each boundary are a fold from the launch memory: a host stretch rewrites what its operations write, a region its windows' arrays. The run ends with every unscoped buffer at the last boundary's contents; each argument walks back through the fold to the launch memory. -/
import proofs.«156192_j47339129536658_1_alg».proof.Proof.KB.R0Frame
import proofs.«156192_j47339129536658_1_alg».proof.Proof.KB.R1Frame
import proofs.«156192_j47339129536658_1_alg».proof.Proof.KB.R2Frame
import proofs.«156192_j47339129536658_1_alg».proof.Proof.KB.R3Frame

noncomputable section

namespace Cert.Kernel.Fr

open Idealize.ShloMosaic Idealize.ShloMosaic.TcCoe
open Idealize.SL Idealize.SL.RA Idealize.SL.BI
open Idealize.SL.BI.BIBase Idealize.SL.BI.Laws Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev wr1 : List (Ref sig .tc) := [main_v1]

abbrev wr2 : List (Ref sig .tc) := [main_v3, main_v4, main_v5, main_cst, main_v6, main_v7, main_v8]

abbrev wr3 : List (Ref sig .tc) :=
  [main_v10, main_v11, main_v12, main_cst_0, main_v13, main_v14, main_v15, main_cst_1, main_v16, main_v17, main_v18,
    main_v19, main_v20, main_v21, main_v22, main_v23, main_v24]

theorem hostOps1_writes : (hostOps1 : List (HloOp τ sig (Elt F))).Forall fun op => op.writes ⊆ (wr1.map (Proc.devRef (τ := τ) .tc)).toFinset := by
  simp only [hostOps1, List.Forall, StableHlo.unary_writes, Finset.singleton_subset_iff, List.mem_toFinset]
  exact List.mem_map_of_mem (by decide)
theorem hostOps2_writes : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes,
    Finset.singleton_subset_iff, List.mem_toFinset]
  repeat' apply And.intro
  all_goals exact List.mem_map_of_mem (by decide)
theorem hostOps3_writes : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes,
    StableHlo.reshape_writes, StableHlo.nary_writes, Finset.singleton_subset_iff, List.mem_toFinset]
  repeat' apply And.intro
  all_goals exact List.mem_map_of_mem (by decide)

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the write-backs leave, every other buffer as entered. -/
def W1 (c : Dev nD) : Valuation τ sig (Elt F) :=
  Pipeline.withArrays spec0 c (W0 m ρ c) fun w => (dat0 (V0 m ρ) c).arrAt w cfg0.N
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
def W3 (c : Dev nD) : Valuation τ sig (Elt F) :=
  Pipeline.withArrays spec1 c (W2 m ρ c) fun w => (dat1 (V2 m ρ) c).arrAt w cfg1.N
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
def W7 (c : Dev nD) : Valuation τ sig (Elt F) :=
  Pipeline.withArrays spec3 c (W6 m ρ c) fun w => (dat3 (V6 m ρ) c).arrAt w cfg3.N

/-- A region's exit contents at one of its arrays are what the write-backs leave; -/
theorem W1_arr (c : Dev nD) (w : Fin cfg0.W) : W1 m ρ c (Proc.devRef .tc (Pipeline.arrRef spec0 w)) = (dat0 (V0 m ρ) c).arrAt w cfg0.N :=
  Pipeline.withArrays_arr spec0 launch0.win.arr_inj c _ _ w
theorem W3_arr (c : Dev nD) (w : Fin cfg1.W) : W3 m ρ c (Proc.devRef .tc (Pipeline.arrRef spec1 w)) = (dat1 (V2 m ρ) c).arrAt w cfg1.N :=
  Pipeline.withArrays_arr spec1 launch1.win.arr_inj c _ _ w
theorem W5_arr (c : Dev nD) (w : Fin cfg2.W) : W5 m ρ c (Proc.devRef .tc (Pipeline.arrRef spec2 w)) = (dat2 (V4 m ρ) c).arrAt w cfg2.N :=
  Pipeline.withArrays_arr spec2 launch2.win.arr_inj c _ _ w
theorem W7_arr (c : Dev nD) (w : Fin cfg3.W) : W7 m ρ c (Proc.devRef .tc (Pipeline.arrRef spec3 w)) = (dat3 (V6 m ρ) c).arrAt w cfg3.N :=
  Pipeline.withArrays_arr spec3 launch3.win.arr_inj c _ _ w

/-- at any other buffer, what the region was entered with; -/
theorem W1_of_ne (c : Dev nD) (b : Ref sig .tc) (hb : ∀ w, Pipeline.arrRef spec0 w ≠ b) : W1 m ρ c (Proc.devRef .tc b) = W0 m ρ c (Proc.devRef .tc b) :=
  Pipeline.withArrays_of_ne spec0 c _ _ b hb
theorem W3_of_ne (c : Dev nD) (b : Ref sig .tc) (hb : ∀ w, Pipeline.arrRef spec1 w ≠ b) : W3 m ρ c (Proc.devRef .tc b) = W2 m ρ c (Proc.devRef .tc b) :=
  Pipeline.withArrays_of_ne spec1 c _ _ b hb
theorem W5_of_ne (c : Dev nD) (b : Ref sig .tc) (hb : ∀ w, Pipeline.arrRef spec2 w ≠ b) : W5 m ρ c (Proc.devRef .tc b) = W4 m ρ c (Proc.devRef .tc b) :=
  Pipeline.withArrays_of_ne spec2 c _ _ b hb
theorem W7_of_ne (c : Dev nD) (b : Ref sig .tc) (hb : ∀ w, Pipeline.arrRef spec3 w ≠ b) : W7 m ρ c (Proc.devRef .tc b) = W6 m ρ c (Proc.devRef .tc b) :=
  Pipeline.withArrays_of_ne spec3 c _ _ b hb

/-- and at an input window's array too, since no write-back touches it. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans ((dat0 (V0 m ρ) c).arrAt_in w hw _)
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans ((dat1 (V2 m ρ) c).arrAt_in w hw _)
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans ((dat2 (V4 m ρ) c).arrAt_in w hw _)

/-- A reference a host stretch does not write keeps its contents across it. -/
theorem W2_keep (c : Dev nD) (r : Ref sig .tc) (h : r ∉ wr1) : W2 m ρ c (Proc.devRef .tc r) = W1 m ρ c (Proc.devRef .tc r) :=
  StableHlo.after_of_writes_sub hostOps1 _ hostOps1_writes h
theorem W4_keep (c : Dev nD) (r : Ref sig .tc) (h : r ∉ wr2) : W4 m ρ c (Proc.devRef .tc r) = W3 m ρ c (Proc.devRef .tc r) :=
  StableHlo.after_of_writes_sub hostOps2 _ hostOps2_writes h
theorem W6_keep (c : Dev nD) (r : Ref sig .tc) (h : r ∉ wr3) : W6 m ρ c (Proc.devRef .tc r) = W5 m ρ c (Proc.devRef .tc r) :=
  StableHlo.after_of_writes_sub hostOps3 _ hostOps3_writes h

/-- The arguments end as launched: no host operation writes one, and a region reads it through an input window or not at all. -/
theorem W7_main_arg0 (c : Dev nD) : W7 m ρ c (Proc.devRef .tc main_arg0) = m ((c : Thread nD τ).loc main_arg0) :=
  (W7_of_ne m ρ c main_arg0 (by decide)).trans <| (W6_keep m ρ c main_arg0 (by decide)).trans <| (W5_of_ne m ρ c main_arg0 (by decide)).trans <|
    (W4_keep m ρ c main_arg0 (by decide)).trans <| (W3_in m ρ c 1 rfl).trans <| (W2_keep m ρ c main_arg0 (by decide)).trans <| W1_of_ne m ρ c main_arg0 (by decide)
theorem W7_main_arg1 (c : Dev nD) : W7 m ρ c (Proc.devRef .tc main_arg1) = m ((c : Thread nD τ).loc main_arg1) :=
  (W7_of_ne m ρ c main_arg1 (by decide)).trans <| (W6_keep m ρ c main_arg1 (by decide)).trans <| (W5_in m ρ c 0 rfl).trans <|
    (W4_keep m ρ c main_arg1 (by decide)).trans <| (W3_in m ρ c 0 rfl).trans <| (W2_keep m ρ c main_arg1 (by decide)).trans <| W1_in m ρ c 0 rfl
theorem W7_main_arg2 (c : Dev nD) : W7 m ρ c (Proc.devRef .tc main_arg2) = m ((c : Thread nD τ).loc main_arg2) :=
  (W7_of_ne m ρ c main_arg2 (by decide)).trans <| (W6_keep m ρ c main_arg2 (by decide)).trans <| (W5_of_ne m ρ c main_arg2 (by decide)).trans <|
    (W4_keep m ρ c main_arg2 (by decide)).trans <| (W3_of_ne m ρ c main_arg2 (by decide)).trans <| (W2_keep m ρ c main_arg2 (by decide)).trans <| W1_of_ne m ρ c main_arg2 (by decide)

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m ρ c) ∗ ∃ r, prngReg c r)

theorem toPhiA {gr W : ℕ} (win : Fin W → Pipeline.WinSpec sig gr) (c : Dev nD) (T : sProp 𝕄) :
    iprop((∃ r, prngReg c r) ∗ T ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

theorem ofPhiA {gr W : ℕ} (win : Fin W → Pipeline.WinSpec sig gr) (c : Dev nD) :
    (Pipeline.ΦA win c : sProp 𝕄)
      ⊢ iprop((∃ r, prngReg c r) ∗ emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

set_option backward.isDefEq.respectTransparency.types false in
/-- A kernel region as a segment of the launch, from its launch facts and its proof data's interface: entered from the buffer contents W,
    left with its windows' arrays at what the write-backs leave and every other buffer as entered. -/
def mkReg (p : Fin 4) (lf : Pipeline.LaunchFacts (nD := nD) (τ := τ) cfgs p) (W : Dev nD → Valuation τ sig (Elt F))
    (hbody : ∀ c, BodyObligation (pdats m ρ p c) (defs₀ (F := F)) Variants.none () Set.univ)
    (howed : ∀ c t, (pdats m ρ p c).owed t = 0) (hrec : ∀ c, (pdats m ρ p c).recorded 0 = Set.univ)
    (hshare : ∀ c w, (pdats m ρ p c).share w = fullShare)
    (hA : ∀ c w, (pdats m ρ p c).A w = W c (Proc.devRef .tc (Pipeline.arrRef (pcfgs (F := F) p).spec w)))
    (hin : ∀ c, (Pipeline.ΦA (pcfgs (F := F) p).spec c : sProp 𝕄) ⊢ (pdats m ρ p c).Φ 0)
    (hout : ∀ c, (pdats m ρ p c).Φ (Fin.last _) ⊢ (Pipeline.ΦA (pcfgs (F := F) p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig)
    (Pipeline.withArrays (pcfgs (F := F) p).spec c (W c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => W c b)
  hentry c := by
    rw [Pipeline.ownSems0_none]
    have hsplit := Pipeline.arrays_of_unscopedBufs (p := p) (pcfgs (F := F)) adm (pdats m ρ) lf.win lf.arr_whole c
      (hshare c) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; exact Set.mem_univ _)
      iexact HO
    isplitl [Hp]; · iexact Hp
    iexact Hrest
  hin c := (toPhiA (pcfgs (F := F) p).spec c _).trans (hin c)
  hout c := by
    rw [Pipeline.ownSems0_none]
    exact (hout c).trans (ofPhiA (pcfgs (F := F) p).spec c)
  hexit c := by
    have hjoin := Pipeline.unscopedBufs_of_arrays (p := p) (pcfgs (F := F)) adm (Ix := Unit) (Name := ℕ) (U := UR sig nD τ) (Lvl := ℕ)
      lf.win lf.arr_whole c (pdats m ρ) (hshare c) (fun b => W c b)
      (fun b => Pipeline.withArrays (pcfgs (F := F) p).spec c (W c) (fun w => (pdats m ρ p c).arrAt w (cfgs p).N) b)
      ((pdats m ρ p c).arrAt · (cfgs p).N)
      (fun w => (Pipeline.withArrays_arr (pcfgs (F := F) p).spec lf.win.arr_inj c (W c) (fun w => (pdats m ρ p c).arrAt w (cfgs p).N) w).symm)
      (fun b hb => Pipeline.withArrays_of_ne (pcfgs (F := F) p).spec c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

abbrev reg0 := mkReg m ρ 0 launch0 (W0 m ρ) (body_obligation0 (V0 m ρ)) (owed0 (V0 m ρ)) (fun _ => rfl) (share0 (V0 m ρ)) (A_eq0 (V0 m ρ)) (hin0 (V0 m ρ)) (hout0 (V0 m ρ))
abbrev reg1 := mkReg m ρ 1 launch1 (W2 m ρ) (body_obligation1 (V2 m ρ)) (owed1 (V2 m ρ)) (fun _ => rfl) (share1 (V2 m ρ)) (A_eq1 (V2 m ρ)) (hin1 (V2 m ρ)) (hout1 (V2 m ρ))
abbrev reg2 := mkReg m ρ 2 launch2 (W4 m ρ) (body_obligation2 (V4 m ρ)) (owed2 (V4 m ρ)) (fun _ => rfl) (share2 (V4 m ρ)) (A_eq2 (V4 m ρ)) (hin2 (V4 m ρ)) (hout2 (V4 m ρ))
abbrev reg3 := mkReg m ρ 3 launch3 (W6 m ρ) (body_obligation3 (V6 m ρ)) (owed3 (V6 m ρ)) (fun _ => rfl) (share3 (V6 m ρ)) (A_eq3 (V6 m ρ)) (hin3 (V6 m ρ)) (hout3 (V6 m ρ))

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]; · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

end Cert.Kernel.Fr

end
-- ==== Proof.KI.R0Runs.lean ====
/- Region 0 (the column sums of the adjacency tensor; grid 4 column tiles x 8 row chunks, t = 8 j + r): what its three control cases share. -/
import proofs.«156192_j47339129536658_1_alg».proof.Proof.Gen.KernelIdeal.Launch
import proofs.«156192_j47339129536658_1_alg».proof.Proof.Gen.KernelIdeal.Skeleton
import proofs.«156192_j47339129536658_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe
open Idealize.SL.RA Idealize.SL.BI
open Idealize.SL.BI.BIBase
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

abbrev VO0_1 : View sig .tc .vmem S4x1024 .f32 := (Memref.whole cc0_stg1_0 : Memref sig .tc .vmem S4x1024 .f32).view
abbrev ms0_0 (t : Fin cfg0.N) : Memref sig .tc .vmem S4x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1024 .f32 := win0_1.stage (cfg0.slots t 1)
abbrev hs0_1 (t : Fin cfg0.N) : (ms0_1 t).IsWhole := hstage0_1 ((cfg0.slots t 1).cast nbuf0_1)

abbrev scM0_0 : Memref sig .tc .vmem S4x1024 .f32 := Memref.whole cc0_scratch0
abbrev VS0_0 : View sig .tc .vmem S4x1024 .f32 := scM0_0.view

abbrev Rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA
  rw [Pipeline.scopedRest_split_of_list spec0 c [cc0_scratch0] (by decide) (by decide)]
  simp only [scM0_0, owns_whole]; try rfl

end Cert.KernelIdeal.Fr

end
-- ==== Proof.KI.R0RunA.lean ====
/- Region 0's body at a column tile's first row chunk: the accumulator is zeroed, then the chunk's column sums are added; the output block is not written. -/
import proofs.«156192_j47339129536658_1_alg».proof.Proof.KI.R0Runs

noncomputable section

namespace Cert.KernelIdeal.Fr

open Idealize.ShloMosaic Idealize.ShloMosaic.TcCoe
open Idealize.SL.RA Idealize.SL.BI
open Idealize.SL.BI.BIBase Idealize.SL.Sem
open Cert.KernelIdeal.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S4x512x1024 .f32) (harg2 : arg2.IsWhole) (arg3 : Memref sig .tc .vmem S4x1024 .f32) (harg3 : arg3.IsWhole) (arg4 : Memref sig .tc .vmem S4x1024 .f32) (harg4 : arg4.IsWhole) (hc0 : cond0_0 i) (hc1 : ¬cond0_1 i)
    (x0 : Vec F S4x512x1024 .f32) :
    Σ' (L1 : List (View.Piece (Elt F) S4x1024 .f32)), { LS0 : List (View.Piece (Elt F) S4x1024 .f32) //
      ∀ (xi1 : Vec F S4x1024 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.KI.R0RunB.lean ====
/- Region 0's body at a middle row chunk: the chunk's column sums are added to the accumulator the chunk before left; the output block is not written. -/
import proofs.«156192_j47339129536658_1_alg».proof.Proof.KI.R0RunA

noncomputable section

namespace Cert.KernelIdeal.Fr

open Idealize.ShloMosaic Idealize.ShloMosaic.TcCoe
open Idealize.SL.RA Idealize.SL.BI
open Idealize.SL.BI.BIBase Idealize.SL.Sem
open Cert.KernelIdeal.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S4x512x1024 .f32) (harg2 : arg2.IsWhole) (arg3 : Memref sig .tc .vmem S4x1024 .f32) (harg3 : arg3.IsWhole) (arg4 : Memref sig .tc .vmem S4x1024 .f32) (harg4 : arg4.IsWhole) (hc0 : ¬cond0_0 i) (hc1 : ¬cond0_1 i)
    (x0 : Vec F S4x512x1024 .f32) (xs0 : Vec F S4x1024 .f32) :
    Σ' (L1 : List (View.Piece (Elt F) S4x1024 .f32)), { LS0 : List (View.Piece (Elt F) S4x1024 .f32) //
      ∀ (xi1 : Vec F S4x1024 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fr

end
-- ==== Proof.KI.R0RunC.lean ====
/- Region 0's body at a column tile's last row chunk: the chunk's column sums are added to the accumulator, and the accumulator is copied to the output block. -/
import proofs.«156192_j47339129536658_1_alg».proof.Proof.KI.R0RunB

noncomputable section

namespace Cert.KernelIdeal.Fr

open Idealize.ShloMosaic Idealize.ShloMosaic.TcCoe
open Idealize.SL.RA Idealize.SL.BI
open Idealize.SL.BI.BIBase Idealize.SL.Sem
open Cert.KernelIdeal.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S4x512x1024 .f32) (harg2 : arg2.IsWhole) (arg3 : Memref sig .tc .vmem S4x1024 .f32) (harg3 : arg3.IsWhole) (arg4 : Memref sig .tc .vmem S4x1024 .f32) (harg4 : arg4.IsWhole) (hc0 : ¬cond0_0 i) (hc1 : cond0_1 i)
    (x0 : Vec F S4x512x1024 .f32) (xs0 : Vec F S4x1024 .f32) :
    Σ' (L1 : List (View.Piece (Elt F) S4x1024 .f32)), { LS0 : List (View.Piece (Elt F) S4x1024 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Fr

end
-- ==== Proof.KI.R0Frame.lean ====
/- Region 0 (the column sums of the adjacency tensor): after point t = 8 j + r the accumulator holds the sums of column tile j over row chunks 0 … r, and at r = 7 the output block is that accumulator. -/
import proofs.«156192_j47339129536658_1_alg».proof.Proof.KI.R0RunC

noncomputable section

namespace Cert.KernelIdeal.Fr

open Idealize.ShloMosaic Idealize.ShloMosaic.TcCoe
open Idealize.SL.RA Idealize.SL.BI
open Idealize.SL.BI.BIBase Idealize.SL.BI.Laws Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (i : grid0.Coords) (arg2 : Memref sig .tc .vmem S4x512x1024 .f32) (harg2 : arg2.IsWhole) (arg3 : Memref sig .tc .vmem S4x1024 .f32) (harg3 : arg3.IsWhole) (arg4 : Memref sig .tc .vmem S4x1024 .f32) (harg4 : arg4.IsWhole)

section FirstChunk
variable (hc0 : cond0_0 i) (hc1 : ¬cond0_1 i) (x0 : Vec F S4x512x1024 .f32)

theorem scover0_A_0 (y : S4x1024.Idx) : ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S4x1024.size (by sl_kernel_rfl) y

def sout0_A_0 : Vec F S4x1024 .f32 :=
  VS0_0.read (Elt F) (VS0_0.writes (Elt F) VS0_0.junk (kernelRun0_A c i arg2 harg2 arg3 harg3 arg4 harg4 hc0 hc1 x0).2.1)

end FirstChunk

section MiddleChunk
variable (hc0 : ¬cond0_0 i) (hc1 : ¬cond0_1 i) (x0 : Vec F S4x512x1024 .f32) (xs0 : Vec F S4x1024 .f32)

theorem scover0_B_0 (y : S4x1024.Idx) : ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S4x1024.size (by sl_kernel_rfl) y

def sout0_B_0 : Vec F S4x1024 .f32 :=
  VS0_0.read (Elt F) (VS0_0.writes (Elt F) VS0_0.junk (kernelRun0_B c i arg2 harg2 arg3 harg3 arg4 harg4 hc0 hc1 x0 xs0).2.1)

end MiddleChunk

section LastChunk
variable (hc0 : ¬cond0_0 i) (hc1 : cond0_1 i) (x0 : Vec F S4x512x1024 .f32) (xs0 : Vec F S4x1024 .f32)

theorem cover0_C_1 (y : S4x1024.Idx) : ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S4x1024.size (by sl_kernel_rfl) y

def out0_C_1 : Vec F S4x1024 .f32 :=
  VO0_1.read (Elt F) (VO0_1.writes (Elt F) VO0_1.junk (kernelRun0_C c i arg2 harg2 arg3 harg3 arg4 harg4 hc0 hc1 x0 xs0).1)

theorem scover0_C_0 (y : S4x1024.Idx) : ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S4x1024.size (by sl_kernel_rfl) y

def sout0_C_0 : Vec F S4x1024 .f32 :=
  VS0_0.read (Elt F) (VS0_0.writes (Elt F) VS0_0.junk (kernelRun0_C c i arg2 harg2 arg3 harg3 arg4 harg4 hc0 hc1 x0 xs0).2.1)

end LastChunk

/-- What each case leaves in (output buffer, accumulator) at point t's memrefs and block; B and C over the accumulator xs0 the chunk before left; before a last chunk the output block is not stored, so its component is a placeholder nothing reads. -/
def pairA0 (t : Fin cfg0.N) (h0 : t.val % 8 = 0) (h1 : ¬t.val % 8 = 7) : Vec F S4x1024 .f32 × Vec F S4x1024 .f32 :=
  (VO0_1.read (Elt F) VO0_1.junk, sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t))
def pairB0 (t : Fin cfg0.N) (h0 : ¬t.val % 8 = 0) (h1 : ¬t.val % 8 = 7) (xs0 : Vec F S4x1024 .f32) : Vec F S4x1024 .f32 × Vec F S4x1024 .f32 :=
  (VO0_1.read (Elt F) VO0_1.junk, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) xs0)
def pairC0 (t : Fin cfg0.N) (h0 : ¬t.val % 8 = 0) (h1 : t.val % 8 = 7) (xs0 : Vec F S4x1024 .f32) : Vec F S4x1024 .f32 × Vec F S4x1024 .f32 :=
  (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) xs0, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) xs0)

/-- The pair after the body at point n, by recursion on n: each point's case run over what the point before left. -/
def outsAt0 : (n : ℕ) → n < cfg0.N → Vec F S4x1024 .f32 × Vec F S4x1024 .f32
  | 0, hn => pairA0 V c ⟨0, hn⟩ (Nat.zero_mod _) (by show ¬0 % 8 = 7; decide)
  | n + 1, hn =>
    if h0 : (n + 1) % 8 = 0 then pairA0 V c ⟨n + 1, hn⟩ h0 (fun h1 => by have h1' : (n + 1) % 8 = 7 := h1; omega)
    else if h1 : (n + 1) % 8 = 7 then pairC0 V c ⟨n + 1, hn⟩ h0 h1 (outsAt0 n (Nat.lt_of_succ_lt hn)).2
    else pairB0 V c ⟨n + 1, hn⟩ h0 h1 (outsAt0 n (Nat.lt_of_succ_lt hn)).2

theorem outsAt0_A (t : Fin cfg0.N) (h0 : t.val % 8 = 0) (h1 : ¬t.val % 8 = 7) : outsAt0 V c t.val t.isLt = pairA0 V c t h0 h1 := by
  obtain ⟨n, hn⟩ := t
  cases n with
  | zero => rfl
  | succ n => exact dif_pos h0

theorem outsAt0_B (t : Fin cfg0.N) (h0 : ¬t.val % 8 = 0) (h1 : ¬t.val % 8 = 7) :
    outsAt0 V c t.val t.isLt = pairB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem outsAt0_C (t : Fin cfg0.N) (h0 : ¬t.val % 8 = 0) (h1 : t.val % 8 = 7) :
    outsAt0 V c t.val t.isLt = pairC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-- The invariant before position n: nothing known at the entry, afterwards the accumulator holds what point n - 1 left. -/
def PhiS0 : (n : ℕ) → n ≤ cfg0.N → sProp 𝕄
  | 0, _ => Pipeline.ΦA spec0 c
  | n + 1, hn => iprop(iprop(owns (c : Thread nD τ) scM0_0 fullShare ((outsAt0 V c n hn).2) ∗ Rest0 (F := F) c) ∗ (∃ r, prngReg c r))

theorem PhiS0_zero (n : ℕ) (h : n ≤ cfg0.N) (hz : n = 0) : PhiS0 V c n h = Pipeline.ΦA spec0 c := by
  subst hz; rfl

theorem PhiS0_pos (n : ℕ) (h : n ≤ cfg0.N) (hz : n ≠ 0) :
    PhiS0 V c n h = iprop(iprop(owns (c : Thread nD τ) scM0_0 fullShare ((outsAt0 V c (n - 1) (by omega)).2) ∗ Rest0 (F := F) c) ∗ (∃ r, prngReg c r)) := by
  cases n with
  | zero => exact absurd rfl hz
  | succ n => rfl

def dat0 : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (w : Fin cfg0.W) : (dat0 V c).A w = V c (Pipeline.arrRef spec0 w) := rfl
theorem share0 (w : Fin cfg0.W) : (dat0 V c).share w = fullShare := (dat0 V c).share_full (fun _ => rfl) w
theorem owed0 (t : Fin (cfg0.N + 1)) : (dat0 V c).owed t = 0 := rfl
theorem after0_1 (t : Fin cfg0.N) : (dat0 V c).after 1 t = (outsAt0 V c t.val t.isLt).1 := rfl

theorem before0_0 (t : Fin cfg0.N) (d) : (dat0 V c).before 0 t d = iblk0 V c 0 t :=
  before0_0_of V (dat0 V c) rfl (fun _ => rfl) t d

/-- At any position the invariant can forget the accumulator's contents. -/
theorem Phi_out0 (t : Fin (cfg0.N + 1)) : (dat0 V c).Φ t ⊢ (Pipeline.ΦA spec0 c : sProp 𝕄) := by
  rw [show (dat0 V c).Φ t = PhiS0 V c t.val (Nat.le_of_lt_succ t.isLt) from rfl]
  by_cases ht : t.val = 0
  · rw [PhiS0_zero V c _ _ ht]; try exact .rfl
  · rw [PhiS0_pos V c _ _ ht, PhiA0_eq]
    iintro ⟨⟨HS0, HR⟩, Hg⟩
    isplitl [HS0 HR]
    · isplitl [HS0]
      · iexists _; iexact HS0
      iexact HR
    iexact Hg

theorem hin0 : (Pipeline.ΦA spec0 c : sProp 𝕄) ⊢ (dat0 V c).Φ 0 := .rfl
theorem hout0 : (dat0 V c).Φ (Fin.last cfg0.N) ⊢ (Pipeline.ΦA spec0 c : sProp 𝕄) := Phi_out0 V c _

def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms pick the case; the invariant lends the accumulator and takes it back at this point's contents. -/
theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl,
    show (dat0 V c).Φ t.succ = iprop(iprop(owns (c : Thread nD τ) scM0_0 fullShare ((outsAt0 V c t.val t.isLt).2) ∗ Rest0 (F := F) c) ∗ (∃ r, prngReg c r)) from rfl,
    show (dat0 V c).leavesExact 0 t = owns (c : Thread nD τ) (ms0_0 t) fullShare (iblk0 V c 0 t) from by
      unfold Dat.leavesExact; rw [liveAt0_0 t] <;> rfl]
  by_cases h0 : t.val % 8 = 0
  · have h1 : ¬t.val % 8 = 7 := by omega
    have hA0 := (hcond0_0 t).mpr h0
    have hA1 : ¬cond0_1 (grid0.coords t) := fun h => h1 ((hcond0_1 t).mp h)
    rw [Dat.leavesExact_idle (dat0 V c) 1 t (idleAt0_1_A t hA0 hA1) (noFlush0_1_A t hA0 hA1), outsAt0_A V c t h0 h1]
    unfold pairA0 sout0_A_0; dsimp only
    refine (sep_mono (Phi_out0 V c t.castSucc) .rfl).trans ?_
    rw [PhiA0_eq]
    iintro ⟨⟨⟨HS0, HR⟩, Hg⟩, Ho, ⟨%d0, H0⟩, ⟨%d1, H1⟩⟩
    iapply ((kernelRun0_A c (grid0.coords t) _ _ _ _ _ _ hA0 hA1 (iblk0 V c 0 t)).2.2 _ Set.univ _)
    isplitl [H0]; · iexact H0
    isplitl [H1]; · iexact H1
    isplitl [HS0]; · iexact HS0
    iintro ⟨H0, H1, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _)
        iexact HR
      iexact Hg
    isplitl [Ho]; · iexact Ho
    isplitl [H0]; · iexact H0
    iexists _; iexact H1
  · have hB0 : ¬cond0_0 (grid0.coords t) := fun h => h0 ((hcond0_0 t).mp h)
    have hz : t.val ≠ 0 := fun h => h0 (by rw [h])
    rw [show (dat0 V c).Φ t.castSucc = PhiS0 V c t.val (Nat.le_of_lt t.isLt) from rfl, PhiS0_pos V c _ _ hz]
    by_cases h1 : t.val % 8 = 7
    · have hC1 := (hcond0_1 t).mpr h1
      rw [show (dat0 V c).leavesExact 1 t = owns (c : Thread nD τ) (ms0_1 t) fullShare ((outsAt0 V c t.val t.isLt).1) from by
        unfold Dat.leavesExact; rw [liveAt0_1_C t hB0 hC1] <;> rfl, outsAt0_C V c t h0 h1]
      unfold pairC0 out0_C_1 sout0_C_0; dsimp only
      iintro ⟨⟨⟨HS0, HR⟩, Hg⟩, Ho, ⟨%d0, H0⟩, ⟨%d1, H1⟩⟩
      iapply ((kernelRun0_C c (grid0.coords t) _ _ _ _ _ _ hB0 hC1 (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · have hB1 : ¬cond0_1 (grid0.coords t) := fun h => h1 ((hcond0_1 t).mp h)
      rw [Dat.leavesExact_idle (dat0 V c) 1 t (idleAt0_1_B t hB0 hB1) (noFlush0_1_B t hB0 hB1), outsAt0_B V c t h0 h1]
      unfold pairB0 sout0_B_0; dsimp only
      iintro ⟨⟨⟨HS0, HR⟩, Hg⟩, Ho, ⟨%d0, H0⟩, ⟨%d1, H1⟩⟩
      iapply ((kernelRun0_B c (grid0.coords t) _ _ _ _ _ _ hB0 hB1 (iblk0 V c 0 t) _).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _)
          iexact HR
        iexact Hg
      isplitl [Ho]; · iexact Ho
      isplitl [H0]; · iexact H0
      iexists _; iexact H1

theorem body_obligation0 : BodyObligation (dat0 (F := F) V c) (defs₀ (F := F)) Variants.none () Set.univ := fun t => by
  rw [bigSep_W0, bigSep_W0]
  exact sound_body0 V c t

end Cert.KernelIdeal.Fr

end
-- ==== Proof.KI.R1Runs.lean ====
/- Region 1 (a batch's adjacency rows times its feature columns; grid 4 batches x 4 row tiles x 2 reduction chunks, t = 8 b + 2 j + r): what its two control cases share. -/
import proofs.«156192_j47339129536658_1_alg».proof.Proof.Gen.KernelIdeal.Launch
import proofs.«156192_j47339129536658_1_alg».proof.Proof.Gen.KernelIdeal.Skeleton
import proofs.«156192_j47339129536658_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe
open Idealize.SL.RA Idealize.SL.BI
open Idealize.SL.BI.BIBase
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem liveAt1_2_B : ∀ t : Fin cfg1.N, ¬cond1_0 (grid1.coords t) → cond1_1 (grid1.coords t) → cfg1.idle 2 (grid1.coords t) = false := by decide +kernel

abbrev VO1_2 : View sig .tc .vmem S1x1024x128 .f32 := (Memref.whole cc1_stg2_0 : Memref sig .tc .vmem S1x1024x128 .f32).view
abbrev ms1_0 (t : Fin cfg1.N) : Memref sig .tc .vmem S1x1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .f32 := win1_2.stage (cfg1.slots t 2)
abbrev hs1_2 (t : Fin cfg1.N) : (ms1_2 t).IsWhole := hstage1_2 ((cfg1.slots t 2).cast nbuf1_2)

abbrev scM1_0 : Memref sig .tc .vmem S1024x128 .f32 := Memref.whole cc1_scratch0
abbrev VS1_0 : View sig .tc .vmem S1024x128 .f32 := scM1_0.view

abbrev Rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [scM1_0, owns_whole]; try rfl

end Cert.KernelIdeal.Fr

end
-- ==== Proof.KI.R1RunA.lean ====
/- Region 1's body at a row tile's first reduction chunk: the accumulator is zeroed, then the chunk's block product is added; the output block is not written. -/
import proofs.«156192_j47339129536658_1_alg».proof.Proof.KI.R1Runs

noncomputable section

namespace Cert.KernelIdeal.Fr

open Idealize.ShloMosaic Idealize.ShloMosaic.TcCoe
open Idealize.SL.RA Idealize.SL.BI
open Idealize.SL.BI.BIBase Idealize.SL.Sem
open Cert.KernelIdeal.Gen

variable {F : FTy → Type} [FloatOps F]

local notation "𝕄" => MT nD τ sig Unit (Elt F) ℕ (UR sig nD τ) ℕ

set_option maxHeartbeats 1000000 in
/-- The pieces the body's stores leave, and the body's run on whole memrefs. -/
noncomputable def kernelRun1_A (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S1024x128 .f32) (harg6 : arg6.IsWhole) (hc0 : cond1_0 i) (hc1 : ¬cond1_1 i)
    (x0 : Vec F S1x1024x2048 .f32) (x1 : Vec F S1x2048x128 .f32) :
    Σ' (L2 : List (View.Piece (Elt F) S1x1024x128 .f32)), { LS0 : List (View.Piece (Elt F) S1024x128 .f32) //
      ∀ (xi2 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.R1RunB.lean ====
/- Region 1's body at a row tile's last reduction chunk: the chunk's block product is added to the accumulator the chunk before left, and the accumulator is copied to the output block. -/
import proofs.«156192_j47339129536658_1_alg».proof.Proof.KI.R1RunA

noncomputable section

namespace Cert.KernelIdeal.Fr

open Idealize.ShloMosaic Idealize.ShloMosaic.TcCoe
open Idealize.SL.RA Idealize.SL.BI
open Idealize.SL.BI.BIBase Idealize.SL.Sem
open Cert.KernelIdeal.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S1024x128 .f32) (harg6 : arg6.IsWhole) (hc0 : ¬cond1_0 i) (hc1 : cond1_1 i)
    (x0 : Vec F S1x1024x2048 .f32) (x1 : Vec F S1x2048x128 .f32) (xs0 : Vec F S1024x128 .f32) :
    Σ' (L2 : List (View.Piece (Elt F) S1x1024x128 .f32)), { LS0 : List (View.Piece (Elt F) S1024x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_kernel i arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Fr

end
-- ==== Proof.KI.R1Frame.lean ====
/- Region 1 (a batch's adjacency rows times its feature columns): after point t = 8 b + 2 j + r the accumulator holds the products of row tile j over reduction chunks 0 … r, and at r = 1 the output block is that accumulator. -/
import proofs.«156192_j47339129536658_1_alg».proof.Proof.KI.R1RunB

noncomputable section

namespace Cert.KernelIdeal.Fr

open Idealize.ShloMosaic Idealize.ShloMosaic.TcCoe
open Idealize.SL.RA Idealize.SL.BI
open Idealize.SL.BI.BIBase Idealize.SL.BI.Laws Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (i : grid1.Coords) (arg3 : Memref sig .tc .vmem S1x1024x2048 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S1024x128 .f32) (harg6 : arg6.IsWhole)

section FirstChunk
variable (hc0 : cond1_0 i) (hc1 : ¬cond1_1 i) (x0 : Vec F S1x1024x2048 .f32) (x1 : Vec F S1x2048x128 .f32)

theorem scover1_A_0 (y : S1024x128.Idx) : ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x128.size (by sl_kernel_rfl) y

def sout1_A_0 : Vec F S1024x128 .f32 :=
  VS1_0.read (Elt F) (VS1_0.writes (Elt F) VS1_0.junk (kernelRun1_A c i arg3 harg3 arg4 harg4 arg5 harg5 arg6 harg6 hc0 hc1 x0 x1).2.1)

end FirstChunk

section LastChunk
variable (hc0 : ¬cond1_0 i) (hc1 : cond1_1 i) (x0 : Vec F S1x1024x2048 .f32) (x1 : Vec F S1x2048x128 .f32) (xs0 : Vec F S1024x128 .f32)

theorem cover1_B_2 (y : S1x1024x128.Idx) : ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S1x1024x128.size (by sl_kernel_rfl) y

def out1_B_2 : Vec F S1x1024x128 .f32 :=
  VO1_2.read (Elt F) (VO1_2.writes (Elt F) VO1_2.junk (kernelRun1_B c i arg3 harg3 arg4 harg4 arg5 harg5 arg6 harg6 hc0 hc1 x0 x1 xs0).1)

theorem scover1_B_0 (y : S1024x128.Idx) : ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x128.size (by sl_kernel_rfl) y

def sout1_B_0 : Vec F S1024x128 .f32 :=
  VS1_0.read (Elt F) (VS1_0.writes (Elt F) VS1_0.junk (kernelRun1_B c i arg3 harg3 arg4 harg4 arg5 harg5 arg6 harg6 hc0 hc1 x0 x1 xs0).2.1)

end LastChunk

/-- What a first chunk leaves in (output buffer, accumulator) at point t's memrefs and blocks; the output block is not stored there, so its component is a placeholder nothing reads. -/
def pairA1 (t : Fin cfg1.N) (h0 : t.val % 2 = 0) : Vec F S1x1024x128 .f32 × Vec F S1024x128 .f32 :=
  (VO1_2.read (Elt F) VO1_2.junk,
   sout1_A_0 c (grid1.coords t) (ms1_0 t) (hs1_0 t) (ms1_1 t) (hs1_1 t) (ms1_2 t) (hs1_2 t) scM1_0 (Memref.isWhole_whole _) ((hcond1_0 t).mpr h0) (fun h => Nat.mod_two_ne_one.mpr h0 ((hcond1_1 t).mp h)) (iblk1 V c 0 t) (iblk1 V c 1 t))

/-- What a last chunk leaves, over the accumulator xs0 the chunk before left. -/
def pairB1 (t : Fin cfg1.N) (h0 : ¬t.val % 2 = 0) (xs0 : Vec F S1024x128 .f32) : Vec F S1x1024x128 .f32 × Vec F S1024x128 .f32 :=
  (out1_B_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr (Nat.mod_two_ne_zero.mp h0)) (iblk1 V c 0 t) (iblk1 V c 1 t) xs0,
   sout1_B_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr (Nat.mod_two_ne_zero.mp h0)) (iblk1 V c 0 t) (iblk1 V c 1 t) xs0)

/-- The pair after the body at point n, by recursion on n: each point's case run over what the point before left. -/
def outsAt1 : (n : ℕ) → n < cfg1.N → Vec F S1x1024x128 .f32 × Vec F S1024x128 .f32
  | 0, hn => pairA1 V c ⟨0, hn⟩ (Nat.zero_mod _)
  | n + 1, hn =>
    if h0 : (n + 1) % 2 = 0 then pairA1 V c ⟨n + 1, hn⟩ h0
    else pairB1 V c ⟨n + 1, hn⟩ h0 (outsAt1 n (Nat.lt_of_succ_lt hn)).2

theorem outsAt1_A (t : Fin cfg1.N) (h0 : t.val % 2 = 0) : outsAt1 V c t.val t.isLt = pairA1 V c t h0 := by
  obtain ⟨n, hn⟩ := t
  cases n with
  | zero => rfl
  | succ n => exact dif_pos h0

theorem outsAt1_B (t : Fin cfg1.N) (h0 : ¬t.val % 2 = 0) :
    outsAt1 V c t.val t.isLt = pairB1 V c t h0 (outsAt1 V c (t.val - 1) (Nat.lt_of_le_of_lt (Nat.sub_le _ _) t.isLt)).2 := by
  obtain ⟨n, hn⟩ := t
  cases n with
  | zero => exact absurd (Nat.zero_mod _) h0
  | succ n => exact dif_neg h0

/-- The invariant before position n: nothing known at the entry, afterwards the accumulator holds what point n - 1 left. -/
def PhiS1 : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (n : ℕ) (h : n ≤ cfg1.N) (hz : n = 0) : PhiS1 V c n h = Pipeline.ΦA spec1 c := by
  subst hz; rfl

theorem PhiS1_pos (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (w : Fin cfg1.W) : (dat1 V c).A w = V c (Pipeline.arrRef spec1 w) := rfl
theorem share1 (w : Fin cfg1.W) : (dat1 V c).share w = fullShare := (dat1 V c).share_full (fun _ => rfl) w
theorem owed1 (t : Fin (cfg1.N + 1)) : (dat1 V c).owed t = 0 := rfl
theorem after1_2 (t : Fin cfg1.N) : (dat1 V c).after 2 t = (outsAt1 V c t.val t.isLt).1 := rfl

theorem before1_0 (t : Fin cfg1.N) (d) : (dat1 V c).before 0 t d = iblk1 V c 0 t :=
  before1_0_of V (dat1 V c) rfl (fun _ => rfl) t d
theorem before1_1 (t : Fin cfg1.N) (d) : (dat1 V c).before 1 t d = iblk1 V c 1 t :=
  before1_1_of V (dat1 V c) rfl (fun _ => rfl) t d

/-- At any position the invariant can forget the accumulator's contents. -/
theorem Phi_out1 (t : Fin (cfg1.N + 1)) : (dat1 V c).Φ t ⊢ (Pipeline.ΦA spec1 c : sProp 𝕄) := by
  rw [show (dat1 V c).Φ t = PhiS1 V c t.val (Nat.le_of_lt_succ t.isLt) from rfl]
  by_cases ht : t.val = 0
  · rw [PhiS1_zero V c _ _ ht]; try exact .rfl
  · rw [PhiS1_pos V c _ _ ht, PhiA1_eq]
    iintro ⟨⟨HS0, HR⟩, Hg⟩
    isplitl [HS0 HR]
    · isplitl [HS0]
      · iexists _; iexact HS0
      iexact HR
    iexact Hg

theorem hin1 : (Pipeline.ΦA spec1 c : sProp 𝕄) ⊢ (dat1 V c).Φ 0 := .rfl
theorem hout1 : (dat1 V c).Φ (Fin.last cfg1.N) ⊢ (Pipeline.ΦA spec1 c : sProp 𝕄) := Phi_out1 V c _

def bodyPre1 (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms pick the case; the invariant lends the accumulator and takes it back at this point's contents. -/
theorem sound_body1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = iprop(iprop(owns (c : Thread nD τ) scM1_0 fullShare ((outsAt1 V c t.val t.isLt).2) ∗ Rest1 (F := F) c) ∗ (∃ r, prngReg c r)) from rfl,
    show (dat1 V c).leavesExact 0 t = owns (c : Thread nD τ) (ms1_0 t) fullShare (iblk1 V c 0 t) from by
      unfold Dat.leavesExact; rw [liveAt1_0 t] <;> rfl,
    show (dat1 V c).leavesExact 1 t = owns (c : Thread nD τ) (ms1_1 t) fullShare (iblk1 V c 1 t) from by
      unfold Dat.leavesExact; rw [liveAt1_1 t] <;> rfl]
  by_cases h0 : t.val % 2 = 0
  · have hA0 := (hcond1_0 t).mpr h0
    have hA1 : ¬cond1_1 (grid1.coords t) := fun h => Nat.mod_two_ne_one.mpr h0 ((hcond1_1 t).mp h)
    rw [Dat.leavesExact_idle (dat1 V c) 2 t (idleAt1_2_A t hA0 hA1) (noFlush1_2_A t hA0 hA1), outsAt1_A V c t h0]
    unfold pairA1 sout1_A_0; dsimp only
    refine (sep_mono (Phi_out1 V c t.castSucc) .rfl).trans ?_
    rw [PhiA1_eq]
    iintro ⟨⟨⟨HS0, HR⟩, Hg⟩, Ho, ⟨%d0, H0⟩, ⟨%d1, H1⟩, ⟨%d2, H2⟩⟩
    iapply ((kernelRun1_A c (grid1.coords t) _ _ _ _ _ _ _ _ hA0 hA1 (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _)
        iexact HR
      iexact Hg
    isplitl [Ho]; · iexact Ho
    isplitl [H0]; · iexact H0
    isplitl [H1]; · iexact H1
    iexists _; iexact H2
  · have hB0 : ¬cond1_0 (grid1.coords t) := fun h => h0 ((hcond1_0 t).mp h)
    have hB1 := (hcond1_1 t).mpr (Nat.mod_two_ne_zero.mp h0)
    have hz : t.val ≠ 0 := fun h => h0 (by rw [h])
    rw [show (dat1 V c).leavesExact 2 t = owns (c : Thread nD τ) (ms1_2 t) fullShare ((outsAt1 V c t.val t.isLt).1) from by
      unfold Dat.leavesExact; rw [liveAt1_2_B t hB0 hB1] <;> rfl, outsAt1_B V c t h0]
    unfold pairB1 out1_B_2 sout1_B_0; dsimp only
    rw [show (dat1 V c).Φ t.castSucc = PhiS1 V c t.val (Nat.le_of_lt t.isLt) from rfl, PhiS1_pos V c _ _ hz]
    iintro ⟨⟨⟨HS0, HR⟩, Hg⟩, Ho, ⟨%d0, H0⟩, ⟨%d1, H1⟩, ⟨%d2, H2⟩⟩
    iapply ((kernelRun1_B c (grid1.coords t) _ _ _ _ _ _ _ _ hB0 hB1 (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_B_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _)

theorem body_obligation1 : BodyObligation (dat1 (F := F) V c) (defs₀ (F := F)) Variants.none () Set.univ := fun t => by
  rw [bigSep_W1, bigSep_W1]
  exact sound_body1 V c t

end Cert.KernelIdeal.Fr

end
-- ==== Proof.KI.R2Runs.lean ====
/- Region 2 (a batch's adjacency rows times its first-term columns; grid 4 batches x 4 row tiles x 2 reduction chunks, t = 8 b + 2 j + r): what its two control cases share. -/
import proofs.«156192_j47339129536658_1_alg».proof.Proof.Gen.KernelIdeal.Launch
import proofs.«156192_j47339129536658_1_alg».proof.Proof.Gen.KernelIdeal.Skeleton
import proofs.«156192_j47339129536658_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe
open Idealize.SL.RA Idealize.SL.BI
open Idealize.SL.BI.BIBase
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)

abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem liveAt2_2_B : ∀ t : Fin cfg2.N, ¬cond2_0 (grid2.coords t) → cond2_1 (grid2.coords t) → cfg2.idle 2 (grid2.coords t) = false := by decide +kernel

abbrev VO2_2 : View sig .tc .vmem S1x1024x128 .f32 := (Memref.whole cc2_stg2_0 : Memref sig .tc .vmem S1x1024x128 .f32).view
abbrev ms2_0 (t : Fin cfg2.N) : Memref sig .tc .vmem S1x1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024x128 .f32 := win2_2.stage (cfg2.slots t 2)
abbrev hs2_2 (t : Fin cfg2.N) : (ms2_2 t).IsWhole := hstage2_2 ((cfg2.slots t 2).cast nbuf2_2)

abbrev scM2_0 : Memref sig .tc .vmem S1024x128 .f32 := Memref.whole cc2_scratch0
abbrev VS2_0 : View sig .tc .vmem S1024x128 .f32 := scM2_0.view

abbrev Rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ Rest2 (F := F) c) ∗ (∃ r, prngReg c r)) := by
  unfold Pipeline.ΦA
  rw [Pipeline.scopedRest_split_of_list spec2 c [cc2_scratch0] (by decide) (by decide)]
  simp only [scM2_0, owns_whole]; try rfl

end Cert.KernelIdeal.Fr

end
-- ==== Proof.KI.R2RunA.lean ====
/- Region 2's body at a row tile's first reduction chunk: the accumulator is zeroed, then the chunk's block product is added; the output block is not written. -/
import proofs.«156192_j47339129536658_1_alg».proof.Proof.KI.R2Runs

noncomputable section

namespace Cert.KernelIdeal.Fr

open Idealize.ShloMosaic Idealize.ShloMosaic.TcCoe
open Idealize.SL.RA Idealize.SL.BI
open Idealize.SL.BI.BIBase Idealize.SL.Sem
open Cert.KernelIdeal.Gen

variable {F : FTy → Type} [FloatOps F]

local notation "𝕄" => MT nD τ sig Unit (Elt F) ℕ (UR sig nD τ) ℕ

set_option maxHeartbeats 1000000 in
/-- The pieces the body's stores leave, and the body's run on whole memrefs. -/
noncomputable def kernelRun2_A (c : Dev nD) (i : grid2.Coords) (arg3 : Memref sig .tc .vmem S1x1024x2048 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S1024x128 .f32) (harg6 : arg6.IsWhole) (hc0 : cond2_0 i) (hc1 : ¬cond2_1 i)
    (x0 : Vec F S1x1024x2048 .f32) (x1 : Vec F S1x2048x128 .f32) :
    Σ' (L2 : List (View.Piece (Elt F) S1x1024x128 .f32)), { LS0 : List (View.Piece (Elt F) S1024x128 .f32) //
      ∀ (xi2 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨[], ?_, fun xi2 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.R2RunB.lean ====
/- Region 2's body at a row tile's last reduction chunk: the chunk's block product is added to the accumulator the chunk before left, and the accumulator is copied to the output block. -/
import proofs.«156192_j47339129536658_1_alg».proof.Proof.KI.R2RunA

noncomputable section

namespace Cert.KernelIdeal.Fr

open Idealize.ShloMosaic Idealize.ShloMosaic.TcCoe
open Idealize.SL.RA Idealize.SL.BI
open Idealize.SL.BI.BIBase Idealize.SL.Sem
open Cert.KernelIdeal.Gen

variable {F : FTy → Type} [FloatOps F]

local notation "𝕄" => MT nD τ sig Unit (Elt F) ℕ (UR sig nD τ) ℕ

set_option maxHeartbeats 1000000 in
noncomputable def kernelRun2_B (c : Dev nD) (i : grid2.Coords) (arg3 : Memref sig .tc .vmem S1x1024x2048 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S1024x128 .f32) (harg6 : arg6.IsWhole) (hc0 : ¬cond2_0 i) (hc1 : cond2_1 i)
    (x0 : Vec F S1x1024x2048 .f32) (x1 : Vec F S1x2048x128 .f32) (xs0 : Vec F S1024x128 .f32) :
    Σ' (L2 : List (View.Piece (Elt F) S1x1024x128 .f32)), { LS0 : List (View.Piece (Elt F) S1024x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Fr

end
-- ==== Proof.KI.R2Frame.lean ====
/- Region 2 (a batch's adjacency rows times its first-term columns): after point t = 8 b + 2 j + r the accumulator holds the products of row tile j over reduction chunks 0 … r, and at r = 1 the output block is that accumulator. -/
import proofs.«156192_j47339129536658_1_alg».proof.Proof.KI.R2RunB

noncomputable section

namespace Cert.KernelIdeal.Fr

open Idealize.ShloMosaic Idealize.ShloMosaic.TcCoe
open Idealize.SL.RA Idealize.SL.BI
open Idealize.SL.BI.BIBase Idealize.SL.BI.Laws Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (c : Dev nD) (i : grid2.Coords) (arg3 : Memref sig .tc .vmem S1x1024x2048 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S1024x128 .f32) (harg6 : arg6.IsWhole)

section FirstChunk
variable (hc0 : cond2_0 i) (hc1 : ¬cond2_1 i) (x0 : Vec F S1x1024x2048 .f32) (x1 : Vec F S1x2048x128 .f32)

theorem scover2_A_0 (y : S1024x128.Idx) : ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S1024x128.size (by sl_kernel_rfl) y

def sout2_A_0 : Vec F S1024x128 .f32 :=
  VS2_0.read (Elt F) (VS2_0.writes (Elt F) VS2_0.junk (kernelRun2_A c i arg3 harg3 arg4 harg4 arg5 harg5 arg6 harg6 hc0 hc1 x0 x1).2.1)

end FirstChunk

section LastChunk
variable (hc0 : ¬cond2_0 i) (hc1 : cond2_1 i) (x0 : Vec F S1x1024x2048 .f32) (x1 : Vec F S1x2048x128 .f32) (xs0 : Vec F S1024x128 .f32)

theorem cover2_B_2 (y : S1x1024x128.Idx) : ∃ pc ∈ (kernelRun2_B c i arg3 harg3 arg4 harg4 arg5 harg5 arg6 harg6 hc0 hc1 x0 x1 xs0).1, y ∈ pc.1.set :=
  View.cover_of_tiledL (kernelRun2_B c i arg3 harg3 arg4 harg4 arg5 harg5 arg6 harg6 hc0 hc1 x0 x1 xs0).1 S1x1024x128.size (by sl_kernel_rfl) y

def out2_B_2 : Vec F S1x1024x128 .f32 :=
  VO2_2.read (Elt F) (VO2_2.writes (Elt F) VO2_2.junk (kernelRun2_B c i arg3 harg3 arg4 harg4 arg5 harg5 arg6 harg6 hc0 hc1 x0 x1 xs0).1)

theorem scover2_B_0 (y : S1024x128.Idx) : ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S1024x128.size (by sl_kernel_rfl) y

def sout2_B_0 : Vec F S1024x128 .f32 :=
  VS2_0.read (Elt F) (VS2_0.writes (Elt F) VS2_0.junk (kernelRun2_B c i arg3 harg3 arg4 harg4 arg5 harg5 arg6 harg6 hc0 hc1 x0 x1 xs0).2.1)

end LastChunk

/-- What a first chunk leaves in (output buffer, accumulator) at point t's memrefs and blocks; the output block is not stored there, so its component is a placeholder nothing reads. -/
def pairA2 (t : Fin cfg2.N) (h0 : t.val % 2 = 0) : Vec F S1x1024x128 .f32 × Vec F S1024x128 .f32 :=
  (VO2_2.read (Elt F) VO2_2.junk,
   sout2_A_0 c (grid2.coords t) (ms2_0 t) (hs2_0 t) (ms2_1 t) (hs2_1 t) (ms2_2 t) (hs2_2 t) scM2_0 (Memref.isWhole_whole _) ((hcond2_0 t).mpr h0) (fun h => Nat.mod_two_ne_one.mpr h0 ((hcond2_1 t).mp h)) (iblk2 V c 0 t) (iblk2 V c 1 t))

/-- What a last chunk leaves, over the accumulator xs0 the chunk before left. -/
def pairB2 (t : Fin cfg2.N) (h0 : ¬t.val % 2 = 0) (xs0 : Vec F S1024x128 .f32) : Vec F S1x1024x128 .f32 × Vec F S1024x128 .f32 :=
  (out2_B_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr (Nat.mod_two_ne_zero.mp h0)) (iblk2 V c 0 t) (iblk2 V c 1 t) xs0,
   sout2_B_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr (Nat.mod_two_ne_zero.mp h0)) (iblk2 V c 0 t) (iblk2 V c 1 t) xs0)

/-- The pair after the body at point n, by recursion on n: each point's case run over what the point before left. -/
def outsAt2 : (n : ℕ) → n < cfg2.N → Vec F S1x1024x128 .f32 × Vec F S1024x128 .f32
  | 0, hn => pairA2 V c ⟨0, hn⟩ (Nat.zero_mod _)
  | n + 1, hn =>
    if h0 : (n + 1) % 2 = 0 then pairA2 V c ⟨n + 1, hn⟩ h0
    else pairB2 V c ⟨n + 1, hn⟩ h0 (outsAt2 n (Nat.lt_of_succ_lt hn)).2

theorem outsAt2_A (t : Fin cfg2.N) (h0 : t.val % 2 = 0) : outsAt2 V c t.val t.isLt = pairA2 V c t h0 := by
  obtain ⟨n, hn⟩ := t
  cases n with
  | zero => rfl
  | succ n => exact dif_pos h0

theorem outsAt2_B (t : Fin cfg2.N) (h0 : ¬t.val % 2 = 0) :
    outsAt2 V c t.val t.isLt = pairB2 V c t h0 (outsAt2 V c (t.val - 1) (Nat.lt_of_le_of_lt (Nat.sub_le _ _) t.isLt)).2 := by
  obtain ⟨n, hn⟩ := t
  cases n with
  | zero => exact absurd (Nat.zero_mod _) h0
  | succ n => exact dif_neg h0

/-- The invariant before position n: nothing known at the entry, afterwards the accumulator holds what point n - 1 left. -/
def PhiS2 : (n : ℕ) → n ≤ cfg2.N → sProp 𝕄
  | 0, _ => Pipeline.ΦA spec2 c
  | n + 1, hn => iprop(iprop(owns (c : Thread nD τ) scM2_0 fullShare ((outsAt2 V c n hn).2) ∗ Rest2 (F := F) c) ∗ (∃ r, prngReg c r))

theorem PhiS2_zero (n : ℕ) (h : n ≤ cfg2.N) (hz : n = 0) : PhiS2 V c n h = Pipeline.ΦA spec2 c := by
  subst hz; rfl

theorem PhiS2_pos (n : ℕ) (h : n ≤ cfg2.N) (hz : n ≠ 0) :
    PhiS2 V c n h = iprop(iprop(owns (c : Thread nD τ) scM2_0 fullShare ((outsAt2 V c (n - 1) (by omega)).2) ∗ Rest2 (F := F) c) ∗ (∃ r, prngReg c r)) := by
  cases n with
  | zero => exact absurd rfl hz
  | succ n => rfl

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (w : Fin cfg2.W) : (dat2 V c).A w = V c (Pipeline.arrRef spec2 w) := rfl
theorem share2 (w : Fin cfg2.W) : (dat2 V c).share w = fullShare := (dat2 V c).share_full (fun _ => rfl) w
theorem owed2 (t : Fin (cfg2.N + 1)) : (dat2 V c).owed t = 0 := rfl
theorem after2_2 (t : Fin cfg2.N) : (dat2 V c).after 2 t = (outsAt2 V c t.val t.isLt).1 := rfl

theorem before2_0 (t : Fin cfg2.N) (d) : (dat2 V c).before 0 t d = iblk2 V c 0 t :=
  before2_0_of V (dat2 V c) rfl (fun _ => rfl) t d
theorem before2_1 (t : Fin cfg2.N) (d) : (dat2 V c).before 1 t d = iblk2 V c 1 t :=
  before2_1_of V (dat2 V c) rfl (fun _ => rfl) t d

/-- At any position the invariant can forget the accumulator's contents. -/
theorem Phi_out2 (t : Fin (cfg2.N + 1)) : (dat2 V c).Φ t ⊢ (Pipeline.ΦA spec2 c : sProp 𝕄) := by
  rw [show (dat2 V c).Φ t = PhiS2 V c t.val (Nat.le_of_lt_succ t.isLt) from rfl]
  by_cases ht : t.val = 0
  · rw [PhiS2_zero V c _ _ ht]; try exact .rfl
  · rw [PhiS2_pos V c _ _ ht, PhiA2_eq]
    iintro ⟨⟨HS0, HR⟩, Hg⟩
    isplitl [HS0 HR]
    · isplitl [HS0]
      · iexists _; iexact HS0
      iexact HR
    iexact Hg

theorem hin2 : (Pipeline.ΦA spec2 c : sProp 𝕄) ⊢ (dat2 V c).Φ 0 := .rfl
theorem hout2 : (dat2 V c).Φ (Fin.last cfg2.N) ⊢ (Pipeline.ΦA spec2 c : sProp 𝕄) := Phi_out2 V c _

def bodyPre2 (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the closed forms pick the case; the invariant lends the accumulator and takes it back at this point's contents. -/
theorem sound_body2 (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    show (dat2 V c).Φ t.succ = iprop(iprop(owns (c : Thread nD τ) scM2_0 fullShare ((outsAt2 V c t.val t.isLt).2) ∗ Rest2 (F := F) c) ∗ (∃ r, prngReg c r)) from rfl,
    show (dat2 V c).leavesExact 0 t = owns (c : Thread nD τ) (ms2_0 t) fullShare (iblk2 V c 0 t) from by
      unfold Dat.leavesExact; rw [liveAt2_0 t] <;> rfl,
    show (dat2 V c).leavesExact 1 t = owns (c : Thread nD τ) (ms2_1 t) fullShare (iblk2 V c 1 t) from by
      unfold Dat.leavesExact; rw [liveAt2_1 t] <;> rfl]
  by_cases h0 : t.val % 2 = 0
  · have hA0 := (hcond2_0 t).mpr h0
    have hA1 : ¬cond2_1 (grid2.coords t) := fun h => Nat.mod_two_ne_one.mpr h0 ((hcond2_1 t).mp h)
    rw [Dat.leavesExact_idle (dat2 V c) 2 t (idleAt2_2_A t hA0 hA1) (noFlush2_2_A t hA0 hA1), outsAt2_A V c t h0]
    unfold pairA2 sout2_A_0; dsimp only
    refine (sep_mono (Phi_out2 V c t.castSucc) .rfl).trans ?_
    rw [PhiA2_eq]
    iintro ⟨⟨⟨HS0, HR⟩, Hg⟩, Ho, ⟨%d0, H0⟩, ⟨%d1, H1⟩, ⟨%d2, H2⟩⟩
    iapply ((kernelRun2_A c (grid2.coords t) _ _ _ _ _ _ _ _ hA0 hA1 (iblk2 V c 0 t) (iblk2 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_A_0 c _ _ _ _ _ _ _ _ _ _ _ _ _)
        iexact HR
      iexact Hg
    isplitl [Ho]; · iexact Ho
    isplitl [H0]; · iexact H0
    isplitl [H1]; · iexact H1
    iexists _; iexact H2
  · have hB0 : ¬cond2_0 (grid2.coords t) := fun h => h0 ((hcond2_0 t).mp h)
    have hB1 := (hcond2_1 t).mpr (Nat.mod_two_ne_zero.mp h0)
    have hz : t.val ≠ 0 := fun h => h0 (by rw [h])
    rw [show (dat2 V c).leavesExact 2 t = owns (c : Thread nD τ) (ms2_2 t) fullShare ((outsAt2 V c t.val t.isLt).1) from by
      unfold Dat.leavesExact; rw [liveAt2_2_B t hB0 hB1] <;> rfl, outsAt2_B V c t h0]
    unfold pairB2 out2_B_2 sout2_B_0; dsimp only
    rw [show (dat2 V c).Φ t.castSucc = PhiS2 V c t.val (Nat.le_of_lt t.isLt) from rfl, PhiS2_pos V c _ _ hz]
    iintro ⟨⟨⟨HS0, HR⟩, Hg⟩, Ho, ⟨%d0, H0⟩, ⟨%d1, H1⟩, ⟨%d2, H2⟩⟩
    iapply ((kernelRun2_B c (grid2.coords t) _ _ _ _ _ _ _ _ hB0 hB1 (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_B_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_B_2 c _ _ _ _ _ _ _ _ _ _ _ _ _ _)

theorem body_obligation2 : BodyObligation (dat2 (F := F) V c) (defs₀ (F := F)) Variants.none () Set.univ := fun t => by
  rw [bigSep_W2, bigSep_W2]
  exact sound_body2 V c t

end Cert.KernelIdeal.Fr

end
-- ==== Proof.KI.R3Frame.lean ====
/- Region 3 (the dense layer: each block of 1024 rows of the stacked features times the whole transposed weight; grid 4 batches x 4 row tiles): one control case, nothing kept between points. -/
import proofs.«156192_j47339129536658_1_alg».proof.Proof.Gen.KernelIdeal.Launch
import proofs.«156192_j47339129536658_1_alg».proof.Proof.Gen.KernelIdeal.Skeleton
import proofs.«156192_j47339129536658_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe
open Idealize.SL.RA Idealize.SL.BI
open Idealize.SL.BI.BIBase Idealize.SL.BI.Laws Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1x1024x384 := Rect.unit (s := S1x1024x384) ![0, 0, 0] S1x1024x384.size inb_S1x1024x384_S1x1024x384_0_0_0
abbrev r3_1 : Rect S384x128 := Rect.unit (s := S384x128) ![0, 0] S384x128.size inb_S384x128_S384x128_0_0
abbrev r3_2 : Rect S1x1024x128 := Rect.unit (s := S1x1024x128) ![0, 0, 0] S1x1024x128.size inb_S1x1024x128_S1x1024x128_0_0_0

def out3_2 (x0 : Vec F S1x1024x384 .f32) (x1 : Vec F S384x128 .f32) : Vec F S1x1024x128 .f32 :=
  View.canon [⟨r3_2, k3_pay1 (View.ld x0 r3_0) (View.ld x1 r3_1)⟩]

theorem cover3_2 (p0 : Vec F S1x1024x128 .f32) (y : S1x1024x128.Idx) :
    ∃ pc ∈ ([⟨r3_2, p0⟩] : List (View.Piece (Elt F) S1x1024x128 .f32)), y ∈ pc.1.set :=
  View.cover_of_tiled [⟨r3_2, p0⟩] S1x1024x128.size (by rfl) y

set_option maxHeartbeats 1000000 in
theorem sound_kernel3 (c : Dev nD) (E : Set ℕ) (i : grid3.Coords) (arg2 : Memref sig .tc .vmem S1x1024x384 .f32) (harg2 : arg2.IsWhole) (arg3 : Memref sig .tc .vmem S384x128 .f32) (harg3 : arg3.IsWhole) (arg4 : Memref sig .tc .vmem S1x1024x128 .f32) (harg4 : arg4.IsWhole)
    (x0 : Vec F S1x1024x384 .f32) (x1 : Vec F S384x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__linear_kernel i arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl
theorem share3 (c : Dev nD) (w : Fin cfg3.W) : (dat3 V c).share w = fullShare := (dat3 V c).share_full (fun _ => rfl) w
theorem owed3 (c : Dev nD) (t : Fin (cfg3.N + 1)) : (dat3 V c).owed t = 0 := rfl

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := .rfl

end Cert.KernelIdeal.Fr

end
-- ==== Proof.KI.Run.lean ====
/- The launch: @main's seven items (region 0, host stretch, region 1, host stretch, region 2, host stretch, region 3) as segments. The buffer contents at each boundary are a fold from the launch memory: a host stretch rewrites what its operations write, a region its windows' arrays. The run ends with every unscoped buffer at the last boundary's contents; each argument walks back through the fold to the launch memory. -/
import proofs.«156192_j47339129536658_1_alg».proof.Proof.KI.R0Frame
import proofs.«156192_j47339129536658_1_alg».proof.Proof.KI.R1Frame
import proofs.«156192_j47339129536658_1_alg».proof.Proof.KI.R2Frame
import proofs.«156192_j47339129536658_1_alg».proof.Proof.KI.R3Frame

noncomputable section

namespace Cert.KernelIdeal.Fr

open Idealize.ShloMosaic Idealize.ShloMosaic.TcCoe
open Idealize.SL Idealize.SL.RA Idealize.SL.BI
open Idealize.SL.BI.BIBase Idealize.SL.BI.Laws Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev wr1 : List (Ref sig .tc) := [main_v1]

abbrev wr2 : List (Ref sig .tc) := [main_v3, main_v4, main_v5, main_cst, main_v6, main_v7, main_v8]

abbrev wr3 : List (Ref sig .tc) :=
  [main_v10, main_v11, main_v12, main_cst_0, main_v13, main_v14, main_v15, main_cst_1, main_v16, main_v17, main_v18,
    main_v19, main_v20, main_v21, main_v22, main_v23, main_v24]

theorem hostOps1_writes : (hostOps1 : List (HloOp τ sig (Elt F))).Forall fun op => op.writes ⊆ (wr1.map (Proc.devRef (τ := τ) .tc)).toFinset := by
  simp only [hostOps1, List.Forall, StableHlo.unary_writes, Finset.singleton_subset_iff, List.mem_toFinset]
  exact List.mem_map_of_mem (by decide)
theorem hostOps2_writes : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes,
    Finset.singleton_subset_iff, List.mem_toFinset]
  repeat' apply And.intro
  all_goals exact List.mem_map_of_mem (by decide)
theorem hostOps3_writes : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes,
    StableHlo.reshape_writes, StableHlo.nary_writes, Finset.singleton_subset_iff, List.mem_toFinset]
  repeat' apply And.intro
  all_goals exact List.mem_map_of_mem (by decide)

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the write-backs leave, every other buffer as entered. -/
def W1 (c : Dev nD) : Valuation τ sig (Elt F) :=
  Pipeline.withArrays spec0 c (W0 m ρ c) fun w => (dat0 (V0 m ρ) c).arrAt w cfg0.N
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
def W3 (c : Dev nD) : Valuation τ sig (Elt F) :=
  Pipeline.withArrays spec1 c (W2 m ρ c) fun w => (dat1 (V2 m ρ) c).arrAt w cfg1.N
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
def W7 (c : Dev nD) : Valuation τ sig (Elt F) :=
  Pipeline.withArrays spec3 c (W6 m ρ c) fun w => (dat3 (V6 m ρ) c).arrAt w cfg3.N

/-- A region's exit contents at one of its arrays are what the write-backs leave; -/
theorem W1_arr (c : Dev nD) (w : Fin cfg0.W) : W1 m ρ c (Proc.devRef .tc (Pipeline.arrRef spec0 w)) = (dat0 (V0 m ρ) c).arrAt w cfg0.N :=
  Pipeline.withArrays_arr spec0 launch0.win.arr_inj c _ _ w
theorem W3_arr (c : Dev nD) (w : Fin cfg1.W) : W3 m ρ c (Proc.devRef .tc (Pipeline.arrRef spec1 w)) = (dat1 (V2 m ρ) c).arrAt w cfg1.N :=
  Pipeline.withArrays_arr spec1 launch1.win.arr_inj c _ _ w
theorem W5_arr (c : Dev nD) (w : Fin cfg2.W) : W5 m ρ c (Proc.devRef .tc (Pipeline.arrRef spec2 w)) = (dat2 (V4 m ρ) c).arrAt w cfg2.N :=
  Pipeline.withArrays_arr spec2 launch2.win.arr_inj c _ _ w
theorem W7_arr (c : Dev nD) (w : Fin cfg3.W) : W7 m ρ c (Proc.devRef .tc (Pipeline.arrRef spec3 w)) = (dat3 (V6 m ρ) c).arrAt w cfg3.N :=
  Pipeline.withArrays_arr spec3 launch3.win.arr_inj c _ _ w

/-- at any other buffer, what the region was entered with; -/
theorem W1_of_ne (c : Dev nD) (b : Ref sig .tc) (hb : ∀ w, Pipeline.arrRef spec0 w ≠ b) : W1 m ρ c (Proc.devRef .tc b) = W0 m ρ c (Proc.devRef .tc b) :=
  Pipeline.withArrays_of_ne spec0 c _ _ b hb
theorem W3_of_ne (c : Dev nD) (b : Ref sig .tc) (hb : ∀ w, Pipeline.arrRef spec1 w ≠ b) : W3 m ρ c (Proc.devRef .tc b) = W2 m ρ c (Proc.devRef .tc b) :=
  Pipeline.withArrays_of_ne spec1 c _ _ b hb
theorem W5_of_ne (c : Dev nD) (b : Ref sig .tc) (hb : ∀ w, Pipeline.arrRef spec2 w ≠ b) : W5 m ρ c (Proc.devRef .tc b) = W4 m ρ c (Proc.devRef .tc b) :=
  Pipeline.withArrays_of_ne spec2 c _ _ b hb
theorem W7_of_ne (c : Dev nD) (b : Ref sig .tc) (hb : ∀ w, Pipeline.arrRef spec3 w ≠ b) : W7 m ρ c (Proc.devRef .tc b) = W6 m ρ c (Proc.devRef .tc b) :=
  Pipeline.withArrays_of_ne spec3 c _ _ b hb

/-- and at an input window's array too, since no write-back touches it. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans ((dat0 (V0 m ρ) c).arrAt_in w hw _)
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans ((dat1 (V2 m ρ) c).arrAt_in w hw _)
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans ((dat2 (V4 m ρ) c).arrAt_in w hw _)

/-- A reference a host stretch does not write keeps its contents across it. -/
theorem W2_keep (c : Dev nD) (r : Ref sig .tc) (h : r ∉ wr1) : W2 m ρ c (Proc.devRef .tc r) = W1 m ρ c (Proc.devRef .tc r) :=
  StableHlo.after_of_writes_sub hostOps1 _ hostOps1_writes h
theorem W4_keep (c : Dev nD) (r : Ref sig .tc) (h : r ∉ wr2) : W4 m ρ c (Proc.devRef .tc r) = W3 m ρ c (Proc.devRef .tc r) :=
  StableHlo.after_of_writes_sub hostOps2 _ hostOps2_writes h
theorem W6_keep (c : Dev nD) (r : Ref sig .tc) (h : r ∉ wr3) : W6 m ρ c (Proc.devRef .tc r) = W5 m ρ c (Proc.devRef .tc r) :=
  StableHlo.after_of_writes_sub hostOps3 _ hostOps3_writes h

/-- The arguments end as launched: no host operation writes one, and a region reads it through an input window or not at all. -/
theorem W7_main_arg0 (c : Dev nD) : W7 m ρ c (Proc.devRef .tc main_arg0) = m ((c : Thread nD τ).loc main_arg0) :=
  (W7_of_ne m ρ c main_arg0 (by decide)).trans <| (W6_keep m ρ c main_arg0 (by decide)).trans <| (W5_of_ne m ρ c main_arg0 (by decide)).trans <|
    (W4_keep m ρ c main_arg0 (by decide)).trans <| (W3_in m ρ c 1 rfl).trans <| (W2_keep m ρ c main_arg0 (by decide)).trans <| W1_of_ne m ρ c main_arg0 (by decide)
theorem W7_main_arg1 (c : Dev nD) : W7 m ρ c (Proc.devRef .tc main_arg1) = m ((c : Thread nD τ).loc main_arg1) :=
  (W7_of_ne m ρ c main_arg1 (by decide)).trans <| (W6_keep m ρ c main_arg1 (by decide)).trans <| (W5_in m ρ c 0 rfl).trans <|
    (W4_keep m ρ c main_arg1 (by decide)).trans <| (W3_in m ρ c 0 rfl).trans <| (W2_keep m ρ c main_arg1 (by decide)).trans <| W1_in m ρ c 0 rfl
theorem W7_main_arg2 (c : Dev nD) : W7 m ρ c (Proc.devRef .tc main_arg2) = m ((c : Thread nD τ).loc main_arg2) :=
  (W7_of_ne m ρ c main_arg2 (by decide)).trans <| (W6_keep m ρ c main_arg2 (by decide)).trans <| (W5_of_ne m ρ c main_arg2 (by decide)).trans <|
    (W4_keep m ρ c main_arg2 (by decide)).trans <| (W3_of_ne m ρ c main_arg2 (by decide)).trans <| (W2_keep m ρ c main_arg2 (by decide)).trans <| W1_of_ne m ρ c main_arg2 (by decide)

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m ρ c) ∗ ∃ r, prngReg c r)

theorem toPhiA {gr W : ℕ} (win : Fin W → Pipeline.WinSpec sig gr) (c : Dev nD) (T : sProp 𝕄) :
    iprop((∃ r, prngReg c r) ∗ T ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

theorem ofPhiA {gr W : ℕ} (win : Fin W → Pipeline.WinSpec sig gr) (c : Dev nD) :
    (Pipeline.ΦA win c : sProp 𝕄)
      ⊢ iprop((∃ r, prngReg c r) ∗ emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

set_option backward.isDefEq.respectTransparency.types false in
/-- A kernel region as a segment of the launch, from its launch facts and its proof data's interface: entered from the buffer contents W,
    left with its windows' arrays at what the write-backs leave and every other buffer as entered. -/
def mkReg (p : Fin 4) (lf : Pipeline.LaunchFacts (nD := nD) (τ := τ) cfgs p) (W : Dev nD → Valuation τ sig (Elt F))
    (hbody : ∀ c, BodyObligation (pdats m ρ p c) (defs₀ (F := F)) Variants.none () Set.univ)
    (howed : ∀ c t, (pdats m ρ p c).owed t = 0) (hrec : ∀ c, (pdats m ρ p c).recorded 0 = Set.univ)
    (hshare : ∀ c w, (pdats m ρ p c).share w = fullShare)
    (hA : ∀ c w, (pdats m ρ p c).A w = W c (Proc.devRef .tc (Pipeline.arrRef (pcfgs (F := F) p).spec w)))
    (hin : ∀ c, (Pipeline.ΦA (pcfgs (F := F) p).spec c : sProp 𝕄) ⊢ (pdats m ρ p c).Φ 0)
    (hout : ∀ c, (pdats m ρ p c).Φ (Fin.last _) ⊢ (Pipeline.ΦA (pcfgs (F := F) p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig)
    (Pipeline.withArrays (pcfgs (F := F) p).spec c (W c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => W c b)
  hentry c := by
    rw [Pipeline.ownSems0_none]
    have hsplit := Pipeline.arrays_of_unscopedBufs (p := p) (pcfgs (F := F)) adm (pdats m ρ) lf.win lf.arr_whole c
      (hshare c) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; exact Set.mem_univ _)
      iexact HO
    isplitl [Hp]; · iexact Hp
    iexact Hrest
  hin c := (toPhiA (pcfgs (F := F) p).spec c _).trans (hin c)
  hout c := by
    rw [Pipeline.ownSems0_none]
    exact (hout c).trans (ofPhiA (pcfgs (F := F) p).spec c)
  hexit c := by
    have hjoin := Pipeline.unscopedBufs_of_arrays (p := p) (pcfgs (F := F)) adm (Ix := Unit) (Name := ℕ) (U := UR sig nD τ) (Lvl := ℕ)
      lf.win lf.arr_whole c (pdats m ρ) (hshare c) (fun b => W c b)
      (fun b => Pipeline.withArrays (pcfgs (F := F) p).spec c (W c) (fun w => (pdats m ρ p c).arrAt w (cfgs p).N) b)
      ((pdats m ρ p c).arrAt · (cfgs p).N)
      (fun w => (Pipeline.withArrays_arr (pcfgs (F := F) p).spec lf.win.arr_inj c (W c) (fun w => (pdats m ρ p c).arrAt w (cfgs p).N) w).symm)
      (fun b hb => Pipeline.withArrays_of_ne (pcfgs (F := F) p).spec c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

abbrev reg0 := mkReg m ρ 0 launch0 (W0 m ρ) (body_obligation0 (V0 m ρ)) (owed0 (V0 m ρ)) (fun _ => rfl) (share0 (V0 m ρ)) (A_eq0 (V0 m ρ)) (hin0 (V0 m ρ)) (hout0 (V0 m ρ))
abbrev reg1 := mkReg m ρ 1 launch1 (W2 m ρ) (body_obligation1 (V2 m ρ)) (owed1 (V2 m ρ)) (fun _ => rfl) (share1 (V2 m ρ)) (A_eq1 (V2 m ρ)) (hin1 (V2 m ρ)) (hout1 (V2 m ρ))
abbrev reg2 := mkReg m ρ 2 launch2 (W4 m ρ) (body_obligation2 (V4 m ρ)) (owed2 (V4 m ρ)) (fun _ => rfl) (share2 (V4 m ρ)) (A_eq2 (V4 m ρ)) (hin2 (V4 m ρ)) (hout2 (V4 m ρ))
abbrev reg3 := mkReg m ρ 3 launch3 (W6 m ρ) (body_obligation3 (V6 m ρ)) (owed3 (V6 m ρ)) (fun _ => rfl) (share3 (V6 m ρ)) (A_eq3 (V6 m ρ)) (hin3 (V6 m ρ)) (hout3 (V6 m ρ))

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]; · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

end Cert.KernelIdeal.Fr

end
-- ==== Proof.Val.Fold.lean ====
/- The fold of buffer contents read back: every array a region is entered with, and region 3's two operands, as the host operations' terms of the launch memory and the earlier regions' results. -/
import proofs.«156192_j47339129536658_1_alg».proof.Proof.KI.Run
import Idealize.ShloMosaic.PureOps.Ideal

noncomputable section

namespace Cert.KernelIdeal.Val

open Idealize.ShloMosaic Idealize.ShloMosaic.TcCoe
open Cert.KernelIdeal.Gen Cert.KernelIdeal.Fr

variable (m : (ℓ : Loc nD τ sig) → Buf (Elt Ideal) ℓ) (ρ : Dev nD → PrngReg)

local notation "𝕋" => BufTy.Contents (Elt Ideal) (BufTy.mk S4x4096x128 EltTy.f32)

abbrev X (c : Dev nD) : (⟨S4x4096x128, .f32⟩ : BufTy).Contents (Elt Ideal) := m ((c : Thread nD τ).loc main_arg0)

abbrev Adj (c : Dev nD) : (⟨S4x4096x4096, .f32⟩ : BufTy).Contents (Elt Ideal) := m ((c : Thread nD τ).loc main_arg1)

abbrev Wgt (c : Dev nD) : (⟨S128x384, .f32⟩ : BufTy).Contents (Elt Ideal) := m ((c : Thread nD τ).loc main_arg2)

abbrev R0 (c : Dev nD) : (⟨S4x4096, .f32⟩ : BufTy).Contents (Elt Ideal) := (dat0 (V0 m ρ) c).arrAt 1 cfg0.N

abbrev R1 (c : Dev nD) : (⟨S4x4096x128, .f32⟩ : BufTy).Contents (Elt Ideal) := (dat1 (V2 m ρ) c).arrAt 2 cfg1.N

abbrev R2 (c : Dev nD) : (⟨S4x4096x128, .f32⟩ : BufTy).Contents (Elt Ideal) := (dat2 (V4 m ρ) c).arrAt 2 cfg2.N

abbrev R3 (c : Dev nD) : (⟨S4x4096x128, .f32⟩ : BufTy).Contents (Elt Ideal) := (dat3 (V6 m ρ) c).arrAt 2 cfg3.N

theorem W1_main_v0 (c : Dev nD) : W1 m ρ c (Proc.devRef .tc main_v0) = R0 m ρ c := W1_arr m ρ c 1
theorem W3_main_v2 (c : Dev nD) : W3 m ρ c (Proc.devRef .tc main_v2) = R1 m ρ c := W3_arr m ρ c 2
theorem W5_main_v9 (c : Dev nD) : W5 m ρ c (Proc.devRef .tc main_v9) = R2 m ρ c := W5_arr m ρ c 2

theorem W7_main_v25 (c : Dev nD) : W7 m ρ c (Proc.devRef .tc main_v25) = R3 m ρ c := W7_arr m ρ c 2

abbrev degCol (c : Dev nD) : (⟨S4x4096x1, .f32⟩ : BufTy).Contents (Elt Ideal) :=
  broadcastInDim S4x4096x1 ![0, 1] bcast_S4x4096_S4x4096x1_0_1 (R0 m ρ c)

abbrev degB (c : Dev nD) : (⟨S4x4096x128, .f32⟩ : BufTy).Contents (Elt Ideal) :=
  broadcastInDim S4x4096x128 ![0, 1, 2] bcast_S4x4096x1_S4x4096x128_0_1_2 (degCol m ρ c)

abbrev scaleB : (⟨S4x4096x128, .f32⟩ : BufTy).Contents (Elt Ideal) :=
  broadcastInDim S4x4096x128 ![] bcast_S_S4x4096x128 (constant (F := Ideal) S_ .f32 0x3F7FFFF8#32)

abbrev twoB : (⟨S4x4096x128, .f32⟩ : BufTy).Contents (Elt Ideal) :=
  broadcastInDim S4x4096x128 ![] bcast_S_S4x4096x128 (constant (F := Ideal) S_ .f32 0x40000000#32)

abbrev Z1 (c : Dev nD) : 𝕋 :=
  (subf (F := Ideal) (φ := .f32) : 𝕋 → 𝕋 → 𝕋) ((mulf (F := Ideal) (φ := .f32) : 𝕋 → 𝕋 → 𝕋) scaleB
    ((subf (F := Ideal) (φ := .f32) : 𝕋 → 𝕋 → 𝕋) ((mulf (F := Ideal) (φ := .f32) : 𝕋 → 𝕋 → 𝕋) (degB m ρ c) (X m c)) (R1 m ρ c))) (X m c)

abbrev LZ1 (c : Dev nD) : 𝕋 :=
  (subf (F := Ideal) (φ := .f32) : 𝕋 → 𝕋 → 𝕋) ((mulf (F := Ideal) (φ := .f32) : 𝕋 → 𝕋 → 𝕋) scaleB
    ((subf (F := Ideal) (φ := .f32) : 𝕋 → 𝕋 → 𝕋) ((mulf (F := Ideal) (φ := .f32) : 𝕋 → 𝕋 → 𝕋) (degB m ρ c) (Z1 m ρ c)) (R2 m ρ c))) (Z1 m ρ c)

abbrev Z2 (c : Dev nD) : 𝕋 :=
  (subf (F := Ideal) (φ := .f32) : 𝕋 → 𝕋 → 𝕋) ((mulf (F := Ideal) (φ := .f32) : 𝕋 → 𝕋 → 𝕋) twoB (LZ1 m ρ c)) (X m c)

abbrev unitAx : 𝕋 → (⟨S4x1x4096x128, .f32⟩ : BufTy).Contents (Elt Ideal) :=
  broadcastInDim S4x1x4096x128 ![0, 2, 3] bcast_S4x4096x128_S4x1x4096x128_0_2_3

abbrev Zstack (c : Dev nD) : (⟨S4x3x4096x128, .f32⟩ : BufTy).Contents (Elt Ideal) :=
  concatenate S4x3x4096x128 1
    [⟨S4x1x4096x128, unitAx (X m c)⟩, ⟨S4x1x4096x128, unitAx (Z1 m ρ c)⟩, ⟨S4x1x4096x128, unitAx (Z2 m ρ c)⟩]
    concatenates_S4x1x4096x128_S4x1x4096x128_S4x1x4096x128_S4x3x4096x128_d1

abbrev Zcat (c : Dev nD) : (⟨S4x4096x384, .f32⟩ : BufTy).Contents (Elt Ideal) :=
  shapeCast S4x4096x384 (Zstack m ρ c) shapeCasts_S4x3x4096x128_S4x4096x384

abbrev WgtT (c : Dev nD) : (⟨S384x128, .f32⟩ : BufTy).Contents (Elt Ideal) :=
  transpose S384x128 [1, 0] (Wgt m c) transposes_S128x384_S384x128_1_0

theorem V2_main_arg1 (c : Dev nD) : V2 m ρ c main_arg1 = Adj m c :=
  (W2_keep m ρ c main_arg1 (by decide)).trans (W1_in m ρ c 0 rfl)
theorem V2_main_arg0 (c : Dev nD) : V2 m ρ c main_arg0 = X m c :=
  (W2_keep m ρ c main_arg0 (by decide)).trans (W1_of_ne m ρ c main_arg0 (by decide))
theorem V2_main_arg2 (c : Dev nD) : V2 m ρ c main_arg2 = Wgt m c :=
  (W2_keep m ρ c main_arg2 (by decide)).trans (W1_of_ne m ρ c main_arg2 (by decide))

theorem W2_main_v1 (c : Dev nD) : W2 m ρ c (Proc.devRef .tc main_v1) = degCol m ρ c := by
  have h0 := W1_main_v0 m ρ c
  dsimp only [W2, hostOps1]
  after_results
  rw [h0]

theorem W3_main_arg1 (c : Dev nD) : W3 m ρ c (Proc.devRef .tc main_arg1) = Adj m c :=
  (W3_in m ρ c 0 rfl).trans (V2_main_arg1 m ρ c)
theorem W3_main_arg0 (c : Dev nD) : W3 m ρ c (Proc.devRef .tc main_arg0) = X m c :=
  (W3_in m ρ c 1 rfl).trans (V2_main_arg0 m ρ c)
theorem W3_main_arg2 (c : Dev nD) : W3 m ρ c (Proc.devRef .tc main_arg2) = Wgt m c :=
  (W3_of_ne m ρ c main_arg2 (by decide)).trans (V2_main_arg2 m ρ c)
theorem W3_main_v1 (c : Dev nD) : W3 m ρ c (Proc.devRef .tc main_v1) = degCol m ρ c :=
  (W3_of_ne m ρ c main_v1 (by decide)).trans (W2_main_v1 m ρ c)

theorem V4_main_arg1 (c : Dev nD) : V4 m ρ c main_arg1 = Adj m c :=
  (W4_keep m ρ c main_arg1 (by decide)).trans (W3_main_arg1 m ρ c)
theorem V4_main_arg0 (c : Dev nD) : V4 m ρ c main_arg0 = X m c :=
  (W4_keep m ρ c main_arg0 (by decide)).trans (W3_main_arg0 m ρ c)
theorem V4_main_arg2 (c : Dev nD) : V4 m ρ c main_arg2 = Wgt m c :=
  (W4_keep m ρ c main_arg2 (by decide)).trans (W3_main_arg2 m ρ c)
theorem V4_main_v1 (c : Dev nD) : V4 m ρ c main_v1 = degCol m ρ c :=
  (W4_keep m ρ c main_v1 (by decide)).trans (W3_main_v1 m ρ c)

theorem V4_main_v8 (c : Dev nD) : V4 m ρ c main_v8 = Z1 m ρ c := by
  have h0 := W3_main_arg0 m ρ c
  have h1 := W3_main_v1 m ρ c
  have h2 := W3_main_v2 m ρ c
  dsimp only [V4, W4, hostOps2]
  after_results
  rw [h0, h1, h2]

theorem W5_main_arg0 (c : Dev nD) : W5 m ρ c (Proc.devRef .tc main_arg0) = X m c :=
  (W5_of_ne m ρ c main_arg0 (by decide)).trans (V4_main_arg0 m ρ c)
theorem W5_main_arg2 (c : Dev nD) : W5 m ρ c (Proc.devRef .tc main_arg2) = Wgt m c :=
  (W5_of_ne m ρ c main_arg2 (by decide)).trans (V4_main_arg2 m ρ c)
theorem W5_main_v1 (c : Dev nD) : W5 m ρ c (Proc.devRef .tc main_v1) = degCol m ρ c :=
  (W5_of_ne m ρ c main_v1 (by decide)).trans (V4_main_v1 m ρ c)
theorem W5_main_v8 (c : Dev nD) : W5 m ρ c (Proc.devRef .tc main_v8) = Z1 m ρ c :=
  (W5_in m ρ c 1 rfl).trans (V4_main_v8 m ρ c)

theorem after_split : ∀ (n : ℕ) (ops : List (HloOp τ sig (Elt Ideal))) (G : Valuation τ sig (Elt Ideal)),
    StableHlo.after ops G = StableHlo.after (ops.drop n) (StableHlo.after (ops.take n) G)
  | 0, _, _ => rfl
  | _ + 1, [], _ => rfl
  | n + 1, op :: ops, G => after_split n ops (op.result G)

theorem V6_main_v24 (c : Dev nD) : V6 m ρ c main_v24 = WgtT m c := by
  have h2 := W5_main_arg2 m ρ c
  dsimp only [V6, W6, hostOps3]
  after_results
  rw [h2]

theorem V6_main_v23 (c : Dev nD) : V6 m ρ c main_v23 = Zcat m ρ c := by
  have h0 := W5_main_arg0 m ρ c
  have h1 := W5_main_v1 m ρ c
  have h8 := W5_main_v8 m ρ c
  have h9 := W5_main_v9 m ρ c
  have e19 : StableHlo.after (hostOps3.take 14) (W5 m ρ c) (Proc.devRef .tc main_v19) = unitAx (X m c) := by
    dsimp only [hostOps3, List.take]
    after_results_simp
    rw [h0]
  have e20 : StableHlo.after (hostOps3.take 14) (W5 m ρ c) (Proc.devRef .tc main_v20) = unitAx (Z1 m ρ c) := by
    dsimp only [hostOps3, List.take]
    after_results_simp
    rw [h8]
  have e21 : StableHlo.after (hostOps3.take 14) (W5 m ρ c) (Proc.devRef .tc main_v21) = unitAx (Z2 m ρ c) := by
    dsimp only [hostOps3, List.take]
    after_results_simp
    rw [h0, h1, h8, h9]
  rw [show V6 m ρ c main_v23 = StableHlo.after (hostOps3.drop 14) (StableHlo.after (hostOps3.take 14) (W5 m ρ c)) (Proc.devRef .tc main_v23)
    from congrFun (after_split 14 hostOps3 (W5 m ρ c)) _]
  generalize StableHlo.after (hostOps3.take 14) (W5 m ρ c) = G at e19 e20 e21 ⊢
  dsimp only [hostOps3, List.drop]
  after_results
  show shapeCast S4x4096x384 (concatenate S4x3x4096x128 1
      [⟨S4x1x4096x128, G (Proc.devRef .tc main_v19)⟩, ⟨S4x1x4096x128, G (Proc.devRef .tc main_v20)⟩,
        ⟨S4x1x4096x128, G (Proc.devRef .tc main_v21)⟩]
      concatenates_S4x1x4096x128_S4x1x4096x128_S4x1x4096x128_S4x3x4096x128_d1) shapeCasts_S4x3x4096x128_S4x4096x384 = Zcat m ρ c
  rw [e19, e20, e21]

end Cert.KernelIdeal.Val

end
-- ==== Proof.Val.R0Pieces.lean ====
/- Region 0's control cases read back as values: every case leaves the accumulator at what it started from plus the block's sums along the row axis (started from zero at a first chunk); a last chunk copies it to the output block. -/
import proofs.«156192_j47339129536658_1_alg».proof.Proof.KI.R0Frame
import Idealize.ShloMosaic.Lib.Pipeline.Value
import Idealize.ShloMosaic.Lib.Tactic

noncomputable section

namespace Cert.KernelIdeal.Val

open Idealize.ShloMosaic
open Cert.KernelIdeal.Gen Cert.KernelIdeal.Fr

variable {F : FTy → Type} [FloatOps F]

theorem r0_zeros2 : (![0, 0] : Fin 2 → Nat) = fun _ => 0 := funext fun a => by fin_cases a <;> rfl
theorem r0_zeros3 : (![0, 0, 0] : Fin 3 → Nat) = fun _ => 0 := funext fun a => by fin_cases a <;> rfl

variable (c : Dev nD) (i : grid0.Coords) (arg2 : Memref sig .tc .vmem S4x512x1024 .f32) (harg2 : arg2.IsWhole) (arg3 : Memref sig .tc .vmem S4x1024 .f32) (harg3 : arg3.IsWhole) (arg4 : Memref sig .tc .vmem S4x1024 .f32) (harg4 : arg4.IsWhole)

theorem acc0_first (hc0 : cond0_0 i) (hc1 : ¬cond0_1 i) (x0 : Vec F S4x512x1024 .f32) :
    sout0_A_0 c i arg2 harg2 arg3 harg3 arg4 harg4 hc0 hc1 x0 = k0_pay2 (k0_pay1 (F := F)) x0 := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S4x1024) r0_zeros2, View.readCov_unit_zero (S := S4x1024) _ r0_zeros2]
  simp only [View.readAt_eq_ld, harg2.read_unread, View.ld_unit_zero (S := S4x512x1024) r0_zeros3]

theorem acc0_middle (hc0 : ¬cond0_0 i) (hc1 : ¬cond0_1 i) (x0 : Vec F S4x512x1024 .f32) (xs0 : Vec F S4x1024 .f32) :
    sout0_B_0 c i arg2 harg2 arg3 harg3 arg4 harg4 hc0 hc1 x0 xs0 = k0_pay2 xs0 x0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero r0_zeros2]
  simp only [View.readAt_eq_ld, harg2.read_unread, harg4.read_unread, View.ld_unit_zero (S := S4x1024) r0_zeros2, View.ld_unit_zero (S := S4x512x1024) r0_zeros3]

theorem acc0_last (hc0 : ¬cond0_0 i) (hc1 : cond0_1 i) (x0 : Vec F S4x512x1024 .f32) (xs0 : Vec F S4x1024 .f32) :
    sout0_C_0 c i arg2 harg2 arg3 harg3 arg4 harg4 hc0 hc1 x0 xs0 = k0_pay2 xs0 x0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero r0_zeros2]
  simp only [View.readAt_eq_ld, harg2.read_unread, harg4.read_unread, View.ld_unit_zero (S := S4x1024) r0_zeros2, View.ld_unit_zero (S := S4x512x1024) r0_zeros3]

theorem out0_last (hc0 : ¬cond0_0 i) (hc1 : cond0_1 i) (x0 : Vec F S4x512x1024 .f32) (xs0 : Vec F S4x1024 .f32) :
    out0_C_1 c i arg2 harg2 arg3 harg3 arg4 harg4 hc0 hc1 x0 xs0 = k0_pay2 xs0 x0 := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero r0_zeros2, View.readCov_unit_zero (S := S4x1024) _ r0_zeros2]
  simp only [View.readAt_eq_ld, harg2.read_unread, harg4.read_unread, View.ld_unit_zero (S := S4x1024) r0_zeros2, View.ld_unit_zero (S := S4x512x1024) r0_zeros3]

end Cert.KernelIdeal.Val

end
-- ==== Proof.LibChunkSum.lean ====
/- A finite sum over nb * n positions is the sum, chunk by chunk, of nb chunks of n: position n * b + c is place c of chunk b. True in any commutative monoid, so on the extended reals without finiteness. -/
import Idealize.ShloMosaic.Lib.ValueIdx
import Mathlib.Logic.Equiv.Fin.Basic
import Mathlib.Algebra.BigOperators.Fin

noncomputable section

open scoped BigOperators

namespace Cert.ChunkSum

def pos {nb n : ℕ} (b : Fin nb) (c : Fin n) : Fin (nb * n) := finProdFinEquiv (b, c)

theorem pos_val {nb n : ℕ} (b : Fin nb) (c : Fin n) : (pos b c).val = c.val + n * b.val := rfl

theorem sum_chunks {M : Type*} [AddCommMonoid M] {nb n : ℕ} (f : Fin (nb * n) → M) :
    ∑ k, f k = ∑ b : Fin nb, ∑ c : Fin n, f (pos b c) := by
  rw [← Equiv.sum_comp finProdFinEquiv f, Fintype.sum_prod_type]
  rfl

end Cert.ChunkSum

end
-- ==== Proof.Val.R0Value.lean ====
/- Region 0's output array, over the extended reals: entry (b, q) is the sum of adj(b, k, q) over all 4096 rows k; the 8 chunks of 512 add up to it because + is commutative and associative. -/
import proofs.«156192_j47339129536658_1_alg».proof.Proof.Val.R0Pieces
import proofs.«156192_j47339129536658_1_alg».proof.Proof.LibChunkSum
import Idealize.ShloMosaic.PureOps.Ideal.Laws
import Idealize.ShloMosaic.Lib.ValueIdx
import Idealize.ShloMosaic.Lib.Pipeline.Value
import Idealize.ShloMosaic.Lib.Tactic

noncomputable section

namespace Cert.KernelIdeal.Val

open Idealize.ShloMosaic Idealize.ShloMosaic.TcCoe
open Cert.KernelIdeal.Gen Cert.KernelIdeal.Fr
open Idealize.ShloMosaic.ValueIdx

variable (V : (c : Dev nD) → (b : Ref sig .tc) → Buf (Elt Ideal) ((c : Thread nD τ).loc b))

theorem reset0_apply (b : Fin 4) (y : Fin 1024) : k0_pay1 (F := Ideal) (ix2 b y) = 0 := by
  unfold k0_pay1
  refine (congrFun (shapeCast_self _ _) (ix2 b y)).trans ?_
  exact Ideal.ofBits_zero_f32

theorem update0_apply (acc : Vec Ideal S4x1024 .f32) (x : Vec Ideal S4x512x1024 .f32) (b : Fin 4) (y : Fin 1024) :
    k0_pay2 (F := Ideal) acc x (ix2 b y) = acc (ix2 b y) + ∑ i : Fin 512, x (ix3 b i y) := by
  unfold k0_pay2
  refine (congrFun (shapeCast_self _ _) (ix2 b y)).trans ?_
  refine congrArg (acc (ix2 b y) + ·) ?_
  refine (Ideal.multiReduction_add_single x 0x00000000#32 reduces_S4x512x1024_S4x1024 (.inl rfl) rfl (ix2 b y)).trans ?_
  refine Finset.sum_congr rfl fun i _ => congrArg x ?_
  funext a
  match a with
  | ⟨0, _⟩ => rfl
  | ⟨1, _⟩ => rfl
  | ⟨2, _⟩ => rfl

abbrev adj0 (c : Dev nD) : Vec Ideal S4x4096x4096 .f32 := V c main_arg1

abbrev adjBlock0 (c : Dev nD) (t : Fin cfg0.N) : Vec Ideal S4x512x1024 .f32 := iblk0 V c 0 t

def adjAt0 (c : Dev nD) (b : Fin 4) (p q : ℕ) : EReal :=
  if h : p < 4096 ∧ q < 4096 then adj0 V c (ix3 b ⟨p, h.1⟩ ⟨q, h.2⟩) else 0

theorem idx0_in : ∀ t : Fin cfg0.N, win0_0.index t (0 : Fin 3) = 0 ∧ win0_0.index t (1 : Fin 3) = t.val % 8
    ∧ win0_0.index t (2 : Fin 3) = t.val / 8 :=
  (by decide +kernel : ∀ t : Fin grid0.N, _)

theorem idx0_out : ∀ t : Fin cfg0.N, win0_1.index t (0 : Fin 2) = 0 ∧ win0_1.index t (1 : Fin 2) = t.val / 8 :=
  (by decide +kernel : ∀ t : Fin grid0.N, _)

theorem adjBlock0_apply (c : Dev nD) (t : Fin cfg0.N) (b : Fin 4) (i : Fin 512) (y : Fin 1024) :
    adjBlock0 V c t (ix3 b i y) = adjAt0 V c b (512 * (t.val % 8) + i.val) (1024 * (t.val / 8) + y.val) := by
  have hN : t.val < 32 := lt_of_lt_of_eq t.isLt (show cfg0.N = 32 from N_0)
  obtain ⟨e0, e1, e2⟩ := idx0_in t
  unfold adjAt0
  rw [dif_pos ⟨by omega, by omega⟩]
  show iblk0 V c 0 t (ix3 b i y) = _
  unfold iblk0
  rw [View.read_apply]
  show V c main_arg1 _ = V c main_arg1 _
  congr 1
  funext a
  apply Fin.ext
  match a with
  | ⟨0, _⟩ => show win0_0.index t (0 : Fin 3) * 4 + 1 * b.val = b.val; rw [e0]; omega
  | ⟨1, _⟩ => show win0_0.index t (1 : Fin 3) * 512 + 1 * i.val = 512 * (t.val % 8) + i.val; rw [e1]; omega
  | ⟨2, _⟩ => show win0_0.index t (2 : Fin 3) * 1024 + 1 * y.val = 1024 * (t.val / 8) + y.val; rw [e2]; omega

def chunkSum0 (c : Dev nD) (b : Fin 4) (J s : ℕ) (y : Fin 1024) : EReal :=
  ∑ i : Fin 512, adjAt0 V c b (512 * s + i.val) (1024 * J + y.val)

theorem blockSum0_eq (c : Dev nD) (t : Fin cfg0.N) (b : Fin 4) (y : Fin 1024) :
    ∑ i : Fin 512, adjBlock0 V c t (ix3 b i y) = chunkSum0 V c b (t.val / 8) (t.val % 8) y :=
  Finset.sum_congr rfl fun i _ => adjBlock0_apply V c t b i y

theorem acc0_at_first (c : Dev nD) (t : Fin cfg0.N) (h0 : t.val % 8 = 0) (h1 : ¬t.val % 8 = 7) (b : Fin 4) (y : Fin 1024) :
    (outsAt0 V c t.val t.isLt).2 (ix2 b y) = 0 + ∑ i : Fin 512, adjBlock0 V c t (ix3 b i y) := by
  rw [outsAt0_A V c t h0 h1]
  unfold pairA0; dsimp only
  refine (congrFun (acc0_first c (grid0.coords t) (ms0_0 t) (hs0_0 t) (ms0_1 t) (hs0_1 t) scM0_0 (Memref.isWhole_whole _) ((hcond0_0 t).mpr h0) (fun h => h1 ((hcond0_1 t).mp h)) (adjBlock0 V c t)) (ix2 b y)).trans ?_
  refine (update0_apply (k0_pay1 (F := Ideal)) (adjBlock0 V c t) b y).trans ?_
  exact congrArg (· + ∑ i : Fin 512, adjBlock0 V c t (ix3 b i y)) (reset0_apply b y)

theorem acc0_at_next (c : Dev nD) (n : ℕ) (h : n + 1 < cfg0.N) (h0 : ¬(n + 1) % 8 = 0) (b : Fin 4) (y : Fin 1024) :
    (outsAt0 V c (n + 1) h).2 (ix2 b y)
      = (outsAt0 V c n (Nat.lt_of_succ_lt h)).2 (ix2 b y) + ∑ i : Fin 512, adjBlock0 V c ⟨n + 1, h⟩ (ix3 b i y) := by
  by_cases h1 : (n + 1) % 8 = 7
  · rw [outsAt0_C V c ⟨n + 1, h⟩ h0 h1]
    unfold pairC0; dsimp only
    refine (congrFun (acc0_last c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) (fun hh => h0 ((hcond0_0 ⟨n + 1, h⟩).mp hh)) ((hcond0_1 ⟨n + 1, h⟩).mpr h1) (adjBlock0 V c ⟨n + 1, h⟩) (outsAt0 V c n (Nat.lt_of_succ_lt h)).2) (ix2 b y)).trans ?_
    exact update0_apply (outsAt0 V c n (Nat.lt_of_succ_lt h)).2 (adjBlock0 V c ⟨n + 1, h⟩) b y
  · rw [outsAt0_B V c ⟨n + 1, h⟩ h0 h1]
    unfold pairB0; dsimp only
    refine (congrFun (acc0_middle c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) (fun hh => h0 ((hcond0_0 ⟨n + 1, h⟩).mp hh)) (fun hh => h1 ((hcond0_1 ⟨n + 1, h⟩).mp hh)) (adjBlock0 V c ⟨n + 1, h⟩) (outsAt0 V c n (Nat.lt_of_succ_lt h)).2) (ix2 b y)).trans ?_
    exact update0_apply (outsAt0 V c n (Nat.lt_of_succ_lt h)).2 (adjBlock0 V c ⟨n + 1, h⟩) b y

theorem out0_at_last (c : Dev nD) (n : ℕ) (h : n + 1 < cfg0.N) (h0 : ¬(n + 1) % 8 = 0) (h1 : (n + 1) % 8 = 7) (b : Fin 4) (y : Fin 1024) :
    (outsAt0 V c (n + 1) h).1 (ix2 b y)
      = (outsAt0 V c n (Nat.lt_of_succ_lt h)).2 (ix2 b y) + ∑ i : Fin 512, adjBlock0 V c ⟨n + 1, h⟩ (ix3 b i y) := by
  rw [outsAt0_C V c ⟨n + 1, h⟩ h0 h1]
  unfold pairC0; dsimp only
  refine (congrFun (out0_last c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) (fun hh => h0 ((hcond0_0 ⟨n + 1, h⟩).mp hh)) ((hcond0_1 ⟨n + 1, h⟩).mpr h1) (adjBlock0 V c ⟨n + 1, h⟩) (outsAt0 V c n (Nat.lt_of_succ_lt h)).2) (ix2 b y)).trans ?_
  exact update0_apply (outsAt0 V c n (Nat.lt_of_succ_lt h)).2 (adjBlock0 V c ⟨n + 1, h⟩) b y

theorem acc0_eq (c : Dev nD) : ∀ (n : ℕ) (h : n < cfg0.N) (b : Fin 4) (y : Fin 1024),
    (outsAt0 V c n h).2 (ix2 b y) = ∑ s ∈ Finset.range (n % 8 + 1), chunkSum0 V c b (n / 8) s y
  | 0, h, b, y => by
    refine (acc0_at_first V c ⟨0, h⟩ (Nat.zero_mod 8) (by show ¬(0 % 8 = 7); decide) b y).trans ?_
    rw [blockSum0_eq, zero_add]
    exact (Finset.sum_range_one (fun s => chunkSum0 V c b (0 / 8) s y)).symm
  | n + 1, h, b, y => by
    by_cases h0 : (n + 1) % 8 = 0
    · refine (acc0_at_first V c ⟨n + 1, h⟩ h0 (by dsimp only; omega) b y).trans ?_
      rw [blockSum0_eq, zero_add]
      show chunkSum0 V c b ((n + 1) / 8) ((n + 1) % 8) y = _
      rw [h0]
      exact (Finset.sum_range_one (fun s => chunkSum0 V c b ((n + 1) / 8) s y)).symm
    · have e1 : (n + 1) % 8 = n % 8 + 1 := by omega
      have e2 : (n + 1) / 8 = n / 8 := by omega
      rw [acc0_at_next V c n h h0 b y, acc0_eq c n (Nat.lt_of_succ_lt h) b y, blockSum0_eq]
      show _ + chunkSum0 V c b ((n + 1) / 8) ((n + 1) % 8) y = _
      rw [e1, e2, Finset.sum_range_succ _ (n % 8 + 1)]

theorem chunks0_eq_column (c : Dev nD) (b : Fin 4) (J : ℕ) (y : Fin 1024) (hq : 1024 * J + y.val < 4096) :
    ∑ s ∈ Finset.range 8, chunkSum0 V c b J s y = ∑ k : Fin 4096, adj0 V c (ix3 b k ⟨1024 * J + y.val, hq⟩) := by
  refine Eq.trans ?_ (Cert.ChunkSum.sum_chunks (nb := 8) (n := 512) (fun k : Fin (8 * 512) => adj0 V c (ix3 b k ⟨1024 * J + y.val, hq⟩))).symm
  rw [Finset.sum_range]
  refine Finset.sum_congr rfl fun s _ => Finset.sum_congr rfl fun i _ => ?_
  have hs : s.val < 8 := s.isLt
  have hi : i.val < 512 := i.isLt
  unfold adjAt0
  rw [dif_pos ⟨by omega, hq⟩]
  refine congrArg (adj0 V c) ?_
  funext a
  match a with
  | ⟨0, _⟩ => rfl
  | ⟨1, _⟩ => exact Fin.ext (by show 512 * s.val + i.val = (Cert.ChunkSum.pos s i).val; rw [Cert.ChunkSum.pos_val]; omega)
  | ⟨2, _⟩ => rfl

abbrev colSums0 (c : Dev nD) : Vec Ideal S4x4096 .f32 :=
  fun idx => ∑ k : Fin 4096, adj0 V c (ix3 (⟨(idx 0).val, idx2_lt0 idx⟩ : Fin 4) k (⟨(idx 1).val, idx2_lt1 idx⟩ : Fin 4096))

theorem outBlock0_apply (c : Dev nD) (t : Fin cfg0.N) (h7 : t.val % 8 = 7) (b : Fin 4) (y : Fin 1024)
    (hq : 1024 * (t.val / 8) + y.val < 4096) :
    (outsAt0 V c t.val t.isLt).1 (ix2 b y) = ∑ k : Fin 4096, adj0 V c (ix3 b k ⟨1024 * (t.val / 8) + y.val, hq⟩) := by
  obtain ⟨n, hn⟩ := t
  cases n with
  | zero => exact absurd h7 (by show ¬(0 % 8 = 7); decide)
  | succ n =>
    have h7' : (n + 1) % 8 = 7 := h7
    have e1 : n % 8 + 1 = 7 := by omega
    have e2 : n / 8 = (n + 1) / 8 := by omega
    refine (out0_at_last V c n hn (by omega) h7' b y).trans ?_
    rw [acc0_eq V c n (Nat.lt_of_succ_lt hn) b y, blockSum0_eq]
    show _ + chunkSum0 V c b ((n + 1) / 8) ((n + 1) % 8) y = _
    rw [h7', e1, e2, ← Finset.sum_range_succ _ 7]
    exact chunks0_eq_column V c b ((n + 1) / 8) y hq

theorem mem_outBlock0 (t : Fin cfg0.N) (i : S4x4096.Idx) :
    i ∈ ((cfg0.win 1).blk t).view.set ↔ ∀ a : Fin 2, win0_1.index t a * S4x1024.size a ≤ (i a).val
      ∧ (i a).val < win0_1.index t a * S4x1024.size a + S4x1024.size a := by
  show i ∈ ((View.whole main_v0).slice (win0_1.rect t)).set ↔ _
  rw [View.set_slice_whole, Rect.mem_set_unit]
  exact Iff.rfl

theorem flushed0_eq (c : Dev nD) (t : Fin cfg0.N) (hf : (cfg0.win 1).flush t = true) :
    (dat0 (F := Ideal) V c).flushed 1 t = ((cfg0.win 1).blk t).view.read (Elt Ideal) (colSums0 V c) := by
  have h7 : t.val % 8 = 7 := (flush0_1 t).mp hf
  have hN : t.val < 32 := lt_of_lt_of_eq t.isLt (show cfg0.N = 32 from N_0)
  obtain ⟨e0, e1⟩ := idx0_out t
  show (cfg0.win 1).cut (grid0.coords t) ((dat0 (F := Ideal) V c).after 1 t) = _
  rw [after0_1]
  funext x
  obtain ⟨b, y, rfl⟩ : ∃ (b : Fin 4) (y : Fin 1024), x = ix2 b y := ⟨x 0, x 1, eq_ix2 x⟩
  have hb : b.val < 4 := b.isLt
  have hy : y.val < 1024 := y.isLt
  rw [View.read_apply]
  show (outsAt0 V c t.val t.isLt).1 (ix2 b y) = colSums0 V c (((cfg0.win 1).blk t).view.emb (ix2 b y))
  refine (outBlock0_apply V c t h7 b y (by omega)).trans ?_
  refine Finset.sum_congr rfl fun k _ => congrArg (adj0 V c) ?_
  funext a
  match a with
  | ⟨0, _⟩ => exact Fin.ext (by show b.val = win0_1.index t (0 : Fin 2) * 4 + 1 * b.val; rw [e0]; omega)
  | ⟨1, _⟩ => rfl
  | ⟨2, _⟩ => exact Fin.ext (by show 1024 * (t.val / 8) + y.val = win0_1.index t (1 : Fin 2) * 1024 + 1 * y.val; rw [e1]; omega)

theorem covered0 (i : S4x4096.Idx) : ∃ t : Fin cfg0.N, (cfg0.win 1).flush t = true ∧ i ∈ ((cfg0.win 1).blk t).view.set := by
  have h0 : (i 0).val < 4 := (i 0).isLt
  have h1 : (i 1).val < 4096 := (i 1).isLt
  have hN : cfg0.N = 32 := N_0
  refine ⟨⟨8 * ((i 1).val / 1024) + 7, by rw [hN]; omega⟩, (flush0_1 _).mpr (by dsimp only; omega), ?_⟩
  obtain ⟨e0, e1⟩ := idx0_out ⟨8 * ((i 1).val / 1024) + 7, by rw [hN]; omega⟩
  rw [mem_outBlock0]
  intro a
  match a with
  | ⟨0, _⟩ =>
    show win0_1.index _ (0 : Fin 2) * 4 ≤ (i 0).val ∧ (i 0).val < win0_1.index _ (0 : Fin 2) * 4 + 4
    rw [e0]; omega
  | ⟨1, _⟩ =>
    show win0_1.index _ (1 : Fin 2) * 1024 ≤ (i 1).val ∧ (i 1).val < win0_1.index _ (1 : Fin 2) * 1024 + 1024
    rw [e1]; dsimp only; omega

theorem arrAt0_eq (c : Dev nD) : (dat0 (F := Ideal) V c).arrAt 1 cfg0.N = colSums0 V c :=
  (dat0 (F := Ideal) V c).arrAt_eq_of_cover 1 (colSums0 V c) (flushed0_eq V c) covered0

theorem arrAt0_apply (c : Dev nD) (b : Fin 4) (j : Fin 4096) :
    (dat0 (F := Ideal) V c).arrAt 1 cfg0.N (ix2 b j) = ∑ i : Fin 4096, adj0 V c (ix3 b i j) :=
  congrFun (arrAt0_eq V c) (ix2 b j)

end Cert.KernelIdeal.Val

end
-- ==== Proof.Val.R1Value.lean ====
/- Region 1's output array, over the extended reals: entry (b, n, q) is the sum over all 4096 places k of left(b, n, k) * right(b, k, q); the two chunks of 2048 add up to it because + is commutative and associative. -/
import proofs.«156192_j47339129536658_1_alg».proof.Proof.KI.R1Frame
import proofs.«156192_j47339129536658_1_alg».proof.Proof.LibChunkSum
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Val

open Idealize.ShloMosaic Idealize.ShloMosaic.TcCoe Idealize.ShloMosaic.ValueIdx
open Cert.KernelIdeal.Gen Cert.KernelIdeal.Fr

section Pieces
variable {F : FTy → Type} [FloatOps F]

theorem r1_hz2 : (![0, 0] : Fin 2 → Nat) = fun _ => 0 := funext fun a => by fin_cases a <;> rfl
theorem r1_hz3 : (![0, 0, 0] : Fin 3 → Nat) = fun _ => 0 := funext fun a => by fin_cases a <;> rfl

variable (c : Dev nD) (i : grid1.Coords) (a3 : Memref sig .tc .vmem S1x1024x2048 .f32) (h3 : a3.IsWhole) (a4 : Memref sig .tc .vmem S1x2048x128 .f32) (h4 : a4.IsWhole) (a5 : Memref sig .tc .vmem S1x1024x128 .f32) (h5 : a5.IsWhole) (a6 : Memref sig .tc .vmem S1024x128 .f32) (h6 : a6.IsWhole)

theorem r1_sout_A_eq (hc0 : cond1_0 i) (hc1 : ¬cond1_1 i) (x0 : Vec F S1x1024x2048 .f32) (x1 : Vec F S1x2048x128 .f32) :
    sout1_A_0 c i a3 h3 a4 h4 a5 h5 a6 h6 hc0 hc1 x0 x1 = k1_pay2 x0 x1 (k1_pay1 (F := F)) := by
  unfold sout1_A_0
  rw [View.read_writes_eq_canon _ _ _ (scover1_A_0 c i a3 h3 a4 h4 a5 h5 a6 h6 hc0 hc1 x0 x1)]
  unfold kernelRun1_A
  dsimp only
  sl_unfold_words
  rw [View.canon_cons_unit_zero (S := S1024x128) r1_hz2, View.readCov_unit_zero (S := S1024x128) _ r1_hz2]
  simp only [View.readAt_eq_ld, h3.read_unread, h4.read_unread, View.ld_unit_zero (S := S1x1024x2048) r1_hz3, View.ld_unit_zero (S := S1x2048x128) r1_hz3]

theorem r1_out_B_eq (hc0 : ¬cond1_0 i) (hc1 : cond1_1 i) (x0 : Vec F S1x1024x2048 .f32) (x1 : Vec F S1x2048x128 .f32) (xs0 : Vec F S1024x128 .f32) :
    out1_B_2 c i a3 h3 a4 h4 a5 h5 a6 h6 hc0 hc1 x0 x1 xs0 = k1_pay3 (k1_pay2 x0 x1 xs0) := by
  unfold out1_B_2
  rw [View.read_writes_eq_canon _ _ _ (cover1_B_2 c i a3 h3 a4 h4 a5 h5 a6 h6 hc0 hc1 x0 x1 xs0)]
  unfold kernelRun1_B
  dsimp only
  sl_unfold_words
  rw [View.canon_unit_zero r1_hz3]
  simp only [View.readCov_unit_zero (S := S1024x128) _ r1_hz2, View.readAt_eq_ld, h3.read_unread, h4.read_unread, h6.read_unread, View.ld_unit_zero (S := S1x1024x2048) r1_hz3, View.ld_unit_zero (S := S1x2048x128) r1_hz3, View.ld_unit_zero (S := S1024x128) r1_hz2]

end Pieces

section IdealPayloads

abbrev r1_D : DotDims S1024x2048 S2048x128 S1024x128 := dot_S1024x2048_S2048x128_S1024x128_1_0_0_1_n_n

theorem r1_D_rank : r1_D.contr.rank = 1 := rfl
theorem r1_D_size : r1_D.contr.size ⟨0, by rw [r1_D_rank]; omega⟩ = 2048 := rfl

def r1_e : r1_D.contr.Idx ≃ Fin 2048 := contrEquiv1 r1_D 2048 r1_D_rank r1_D_size

theorem r1_e_symm_val (k : Fin 2048) : ((r1_e.symm k) ⟨0, by decide⟩ : ℕ) = k.val := contrEquiv1_symm_val r1_D 2048 r1_D_rank r1_D_size k

theorem r1_lhs_0 (j : S1024x128.Idx) (k : r1_D.contr.Idx) : (r1_D.lhsIdx j k 0 : ℕ) = j 0 := by
  simp [DotDims.lhsIdx, r1_D, dot_S1024x2048_S2048x128_S1024x128_1_0_0_1_n_n]; rfl
theorem r1_lhs_1 (j : S1024x128.Idx) (k : r1_D.contr.Idx) : (r1_D.lhsIdx j k 1 : ℕ) = k ⟨0, by decide⟩ := by
  simp [DotDims.lhsIdx, r1_D, dot_S1024x2048_S2048x128_S1024x128_1_0_0_1_n_n]; rfl
theorem r1_rhs_0 (j : S1024x128.Idx) (k : r1_D.contr.Idx) : (r1_D.rhsIdx j k 0 : ℕ) = k ⟨0, by decide⟩ := by
  simp [DotDims.rhsIdx, r1_D, dot_S1024x2048_S2048x128_S1024x128_1_0_0_1_n_n]; rfl
theorem r1_rhs_1 (j : S1024x128.Idx) (k : r1_D.contr.Idx) : (r1_D.rhsIdx j k 1 : ℕ) = j 1 := by
  simp [DotDims.rhsIdx, r1_D, dot_S1024x2048_S2048x128_S1024x128_1_0_0_1_n_n]; rfl

theorem r1_pay1_apply (j : S1024x128.Idx) : k1_pay1 (F := Ideal) j = 0 := by
  unfold k1_pay1
  refine (congrFun (shapeCast_self _ _) j).trans ?_
  exact Ideal.ofBits_zero_f32

theorem r1_pay2_apply (x0 : Vec Ideal S1x1024x2048 .f32) (x1 : Vec Ideal S1x2048x128 .f32) (acc : Vec Ideal S1024x128 .f32) (p : Fin 1024) (q : Fin 128) :
    k1_pay2 x0 x1 acc (ix2 p q) = acc (ix2 p q) + ∑ k : Fin 2048, x0 (ix3 0 p k) * x1 (ix3 0 k q) := by
  unfold k1_pay2
  refine (congrFun (shapeCast_self _ _) (ix2 p q)).trans ?_
  refine congrArg (acc (ix2 p q) + ·) ?_
  refine (Ideal.matmul_constant_zero_apply r1_D none _ _ (ix2 p q)).trans ?_
  refine (Equiv.sum_comp r1_e.symm _).symm.trans ?_
  refine Finset.sum_congr rfl fun k _ => ?_
  refine (congrArg₂ (· * ·) (shapeCast_dropUnit_apply ![1024, 2048] x0 shapeCasts_S1x1024x2048_S1024x2048 _) (shapeCast_dropUnit_apply ![2048, 128] x1 shapeCasts_S1x2048x128_S2048x128 _)).trans ?_
  refine congrArg₂ (· * ·) (congrArg x0 ?_) (congrArg x1 ?_)
  · funext a; apply Fin.ext
    match a with
    | ⟨0, _⟩ => rfl
    | ⟨1, _⟩ => exact r1_lhs_0 (ix2 p q) (r1_e.symm k)
    | ⟨2, _⟩ => exact (r1_lhs_1 (ix2 p q) (r1_e.symm k)).trans (r1_e_symm_val k)
  · funext a; apply Fin.ext
    match a with
    | ⟨0, _⟩ => rfl
    | ⟨1, _⟩ => exact (r1_rhs_0 (ix2 p q) (r1_e.symm k)).trans (r1_e_symm_val k)
    | ⟨2, _⟩ => exact r1_rhs_1 (ix2 p q) (r1_e.symm k)

theorem r1_pay3_apply (v : Vec Ideal S1024x128 .f32) (p : Fin 1024) (q : Fin 128) :
    k1_pay3 v (ix3 0 p q) = v (ix2 p q) := by
  unfold k1_pay3
  refine (shapeCast_addUnit_apply ![1024, 128] v shapeCasts_S1024x128_S1x1024x128 (ix3 0 p q)).trans ?_
  refine congrArg v ?_
  funext a
  match a with
  | ⟨0, _⟩ => rfl
  | ⟨1, _⟩ => rfl

end IdealPayloads

section Value
variable (V : (c : Dev nD) → (b : Ref sig .tc) → Buf (Elt Ideal) ((c : Thread nD τ).loc b))

abbrev r1_larr (c : Dev nD) : Vec Ideal S4x4096x4096 .f32 := V c main_arg1
abbrev r1_rarr (c : Dev nD) : Vec Ideal S4x4096x128 .f32 := V c main_arg0

abbrev r1_oarr (c : Dev nD) : Vec Ideal S4x4096x128 .f32 := (dat1 (F := Ideal) V c).arrAt 2 cfg1.N
abbrev r1_lblk (c : Dev nD) (t : Fin cfg1.N) : Vec Ideal S1x1024x2048 .f32 := iblk1 V c 0 t
abbrev r1_rblk (c : Dev nD) (t : Fin cfg1.N) : Vec Ideal S1x2048x128 .f32 := iblk1 V c 1 t

theorem r1_idx_0 : ∀ t : Fin cfg1.N, win1_0.index t 0 = t.val / 8 ∧ win1_0.index t 1 = t.val % 8 / 2 ∧ win1_0.index t 2 = t.val % 2 :=
  (by decide +kernel : ∀ t : Fin grid1.N, win1_0.index t 0 = t.val / 8 ∧ win1_0.index t 1 = t.val % 8 / 2 ∧ win1_0.index t 2 = t.val % 2)
theorem r1_idx_1 : ∀ t : Fin cfg1.N, win1_1.index t 0 = t.val / 8 ∧ win1_1.index t 1 = t.val % 2 ∧ win1_1.index t 2 = 0 :=
  (by decide +kernel : ∀ t : Fin grid1.N, win1_1.index t 0 = t.val / 8 ∧ win1_1.index t 1 = t.val % 2 ∧ win1_1.index t 2 = 0)
theorem r1_idx_2 : ∀ t : Fin cfg1.N, win1_2.index t 0 = t.val / 8 ∧ win1_2.index t 1 = t.val % 8 / 2 ∧ win1_2.index t 2 = 0 :=
  (by decide +kernel : ∀ t : Fin grid1.N, win1_2.index t 0 = t.val / 8 ∧ win1_2.index t 1 = t.val % 8 / 2 ∧ win1_2.index t 2 = 0)

theorem r1_lblk_apply (c : Dev nD) (t : Fin cfg1.N) (p : Fin 1024) (k : Fin 2048) (b : Fin 4) (r s : Fin 4096)
    (hb : b.val = t.val / 8) (hr : r.val = 1024 * (t.val % 8 / 2) + p.val) (hs : s.val = 2048 * (t.val % 2) + k.val) :
    r1_lblk V c t (ix3 0 p k) = r1_larr V c (ix3 b r s) := by
  show ((cfg1.win 0).blk t).view.read (Elt Ideal) (V c (Pipeline.arrRef spec1 0)) (ix3 0 p k) = _
  rw [View.read_apply]
  show V c main_arg1 _ = V c main_arg1 _
  congr 1
  funext a; apply Fin.ext
  match a with
  | ⟨0, _⟩ => show win1_0.index t 0 * 1 + 1 * 0 = b.val; rw [(r1_idx_0 t).1, hb]; omega
  | ⟨1, _⟩ => show win1_0.index t 1 * 1024 + 1 * p.val = r.val; rw [(r1_idx_0 t).2.1, hr]; omega
  | ⟨2, _⟩ => show win1_0.index t 2 * 2048 + 1 * k.val = s.val; rw [(r1_idx_0 t).2.2, hs]; omega

theorem r1_rblk_apply (c : Dev nD) (t : Fin cfg1.N) (k : Fin 2048) (q : Fin 128) (b : Fin 4) (s : Fin 4096)
    (hb : b.val = t.val / 8) (hs : s.val = 2048 * (t.val % 2) + k.val) :
    r1_rblk V c t (ix3 0 k q) = r1_rarr V c (ix3 b s q) := by
  show ((cfg1.win 1).blk t).view.read (Elt Ideal) (V c (Pipeline.arrRef spec1 1)) (ix3 0 k q) = _
  rw [View.read_apply]
  show V c main_arg0 _ = V c main_arg0 _
  congr 1
  funext a; apply Fin.ext
  match a with
  | ⟨0, _⟩ => show win1_1.index t 0 * 1 + 1 * 0 = b.val; rw [(r1_idx_1 t).1, hb]; omega
  | ⟨1, _⟩ => show win1_1.index t 1 * 2048 + 1 * k.val = s.val; rw [(r1_idx_1 t).2.1, hs]; omega
  | ⟨2, _⟩ => show win1_1.index t 2 * 128 + 1 * q.val = q.val; rw [(r1_idx_1 t).2.2]; omega

theorem r1_acc_first (c : Dev nD) (t : Fin cfg1.N) (h0 : t.val % 2 = 0) (p : Fin 1024) (q : Fin 128) :
    (outsAt1 V c t.val t.isLt).2 (ix2 p q) = ∑ k : Fin 2048, r1_lblk V c t (ix3 0 p k) * r1_rblk V c t (ix3 0 k q) := by
  rw [outsAt1_A V c t h0]
  unfold pairA1; dsimp only
  refine (congrFun (r1_sout_A_eq (F := Ideal) c (grid1.coords t) (ms1_0 t) (hs1_0 t) (ms1_1 t) (hs1_1 t) (ms1_2 t) (hs1_2 t) scM1_0 (Memref.isWhole_whole _) ((hcond1_0 t).mpr h0) (fun h => Nat.mod_two_ne_one.mpr h0 ((hcond1_1 t).mp h)) (iblk1 V c 0 t) (iblk1 V c 1 t)) (ix2 p q)).trans ?_
  refine (r1_pay2_apply (iblk1 V c 0 t) (iblk1 V c 1 t) (k1_pay1 (F := Ideal)) p q).trans ?_
  rw [r1_pay1_apply, zero_add]

theorem r1_out_last (c : Dev nD) (t : Fin cfg1.N) (h1 : t.val % 2 = 1) (p : Fin 1024) (q : Fin 128) :
    (outsAt1 V c t.val t.isLt).1 (ix3 0 p q)
      = (outsAt1 V c (t.val - 1) (Nat.lt_of_le_of_lt (Nat.sub_le _ _) t.isLt)).2 (ix2 p q)
        + ∑ k : Fin 2048, r1_lblk V c t (ix3 0 p k) * r1_rblk V c t (ix3 0 k q) := by
  have h0 : ¬t.val % 2 = 0 := by omega
  rw [outsAt1_B V c t h0]
  unfold pairB1; dsimp only
  refine (congrFun (r1_out_B_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) (ix3 0 p q)).trans ?_
  refine (r1_pay3_apply _ p q).trans ?_
  exact r1_pay2_apply (iblk1 V c 0 t) (iblk1 V c 1 t) _ p q

def r1_prodAt (c : Dev nD) (b : Fin 4) (n : Fin 4096) (q : Fin 128) : EReal :=
  ∑ k : Fin 4096, r1_larr V c (ix3 b n k) * r1_rarr V c (ix3 b k q)

def r1_prod (c : Dev nD) : Vec Ideal S4x4096x128 .f32 := fun j => r1_prodAt V c (j 0) (j 1) (j 2)

theorem r1_two_chunks (c : Dev nD) (t : Fin cfg1.N) (h1 : t.val % 2 = 1) (p : Fin 1024) (q : Fin 128) (b : Fin 4) (r : Fin 4096)
    (hb : b.val = t.val / 8) (hr : r.val = 1024 * (t.val % 8 / 2) + p.val) :
    (outsAt1 V c t.val t.isLt).1 (ix3 0 p q) = r1_prodAt V c b r q := by
  have hN : cfg1.N = 32 := N_1
  have htl : t.val < 32 := lt_of_lt_of_eq t.isLt hN
  rw [r1_out_last V c t h1 p q]
  have e0 := r1_acc_first V c ⟨t.val - 1, Nat.lt_of_le_of_lt (Nat.sub_le _ _) t.isLt⟩ (by show (t.val - 1) % 2 = 0; omega) p q
  refine (congrArg (· + _) e0).trans ?_
  unfold r1_prodAt
  refine Eq.trans ?_ (Cert.ChunkSum.sum_chunks (nb := 2) (n := 2048) (fun k : Fin 4096 => r1_larr V c (ix3 b r k) * r1_rarr V c (ix3 b k q))).symm
  rw [Fin.sum_univ_two]
  refine congrArg₂ (· + ·) (Finset.sum_congr rfl fun k _ => ?_) (Finset.sum_congr rfl fun k _ => ?_)
  · refine congrArg₂ (· * ·) (r1_lblk_apply V c _ p k b r _ ?_ ?_ ?_) (r1_rblk_apply V c _ k q b _ ?_ ?_)
    · show b.val = (t.val - 1) / 8; omega
    · show r.val = 1024 * ((t.val - 1) % 8 / 2) + p.val; omega
    · show (Cert.ChunkSum.pos (0 : Fin 2) k).val = 2048 * ((t.val - 1) % 2) + k.val; rw [Cert.ChunkSum.pos_val]; show k.val + 2048 * 0 = _; omega
    · show b.val = (t.val - 1) / 8; omega
    · show (Cert.ChunkSum.pos (0 : Fin 2) k).val = 2048 * ((t.val - 1) % 2) + k.val; rw [Cert.ChunkSum.pos_val]; show k.val + 2048 * 0 = _; omega
  · refine congrArg₂ (· * ·) (r1_lblk_apply V c t p k b r _ hb hr ?_) (r1_rblk_apply V c t k q b _ hb ?_)
    · show (Cert.ChunkSum.pos (1 : Fin 2) k).val = 2048 * (t.val % 2) + k.val; rw [Cert.ChunkSum.pos_val]; show k.val + 2048 * 1 = _; omega
    · show (Cert.ChunkSum.pos (1 : Fin 2) k).val = 2048 * (t.val % 2) + k.val; rw [Cert.ChunkSum.pos_val]; show k.val + 2048 * 1 = _; omega

theorem r1_flushed_eq (c : Dev nD) (t : Fin cfg1.N) (hf : (cfg1.win 2).flush t = true) :
    (dat1 V c).flushed 2 t = ((cfg1.win 2).blk t).view.read (Elt Ideal) (r1_prod V c) := by
  have hN : cfg1.N = 32 := N_1
  have htl : t.val < 32 := lt_of_lt_of_eq t.isLt hN
  have h1 : t.val % 2 = 1 := (flush1_2 t).mp hf
  show (cfg1.win 2).cut (grid1.coords t) ((dat1 V c).after 2 t) = _
  rw [after1_2]
  refine funext fun (y : S1x1024x128.Idx) => ?_
  obtain ⟨y0, p, q, rfl⟩ : ∃ (y0 : Fin 1) (p : Fin 1024) (q : Fin 128), y = ix3 y0 p q := ⟨y 0, y 1, y 2, eq_ix3 y⟩
  obtain rfl : y0 = 0 := Subsingleton.elim _ _
  rw [View.read_apply]
  show (outsAt1 V c t.val t.isLt).1 (ix3 0 p q) = r1_prod V c _
  have e : ((cfg1.win 2).blk t).view.emb (ix3 0 p q)
      = (ix3 (⟨t.val / 8, by omega⟩ : Fin 4) (⟨1024 * (t.val % 8 / 2) + p.val, by omega⟩ : Fin 4096) q : S4x4096x128.Idx) := by
    funext a; apply Fin.ext
    match a with
    | ⟨0, _⟩ => show win1_2.index t 0 * 1 + 1 * 0 = t.val / 8; rw [(r1_idx_2 t).1]; omega
    | ⟨1, _⟩ => show win1_2.index t 1 * 1024 + 1 * p.val = 1024 * (t.val % 8 / 2) + p.val; rw [(r1_idx_2 t).2.1]; omega
    | ⟨2, _⟩ => show win1_2.index t 2 * 128 + 1 * q.val = q.val; rw [(r1_idx_2 t).2.2]; omega
  rw [e]
  exact r1_two_chunks V c t h1 p q _ _ rfl rfl

theorem arrAt1_apply (c : Dev nD) (b : Fin 4) (n : Fin 4096) (q : Fin 128) :
    r1_oarr V c (ix3 b n q) = ∑ k : Fin 4096, r1_larr V c (ix3 b n k) * r1_rarr V c (ix3 b k q) := by
  have hN : cfg1.N = 32 := N_1
  have hb := b.isLt
  have hn := n.isLt
  have htl : 8 * b.val + 2 * (n.val / 1024) + 1 < cfg1.N := by rw [hN]; omega
  have hf : (cfg1.win 2).flush ⟨_, htl⟩ = true := (flush1_2 ⟨_, htl⟩).mpr (by show (8 * b.val + 2 * (n.val / 1024) + 1) % 2 = 1; omega)
  refine ((dat1 V c).arrAt_apply_of_mem 2 (r1_prod V c) (r1_flushed_eq V c) cfg1.N ⟨_, htl⟩ (ix3 b n q) htl hf ?_).trans rfl
  show ix3 b n q ∈ ((View.whole main_v2).slice (win1_2.rect ⟨_, htl⟩)).set
  rw [View.set_slice_whole, Rect.mem_set_unit]
  intro a
  match a with
  | ⟨0, _⟩ =>
    show win1_2.index ⟨_, htl⟩ 0 * 1 ≤ b.val ∧ b.val < win1_2.index ⟨_, htl⟩ 0 * 1 + 1
    rw [(r1_idx_2 ⟨_, htl⟩).1]; show (8 * b.val + 2 * (n.val / 1024) + 1) / 8 * 1 ≤ _ ∧ _ < (8 * b.val + 2 * (n.val / 1024) + 1) / 8 * 1 + 1; omega
  | ⟨1, _⟩ =>
    show win1_2.index ⟨_, htl⟩ 1 * 1024 ≤ n.val ∧ n.val < win1_2.index ⟨_, htl⟩ 1 * 1024 + 1024
    rw [(r1_idx_2 ⟨_, htl⟩).2.1]; show (8 * b.val + 2 * (n.val / 1024) + 1) % 8 / 2 * 1024 ≤ _ ∧ _ < (8 * b.val + 2 * (n.val / 1024) + 1) % 8 / 2 * 1024 + 1024; omega
  | ⟨2, _⟩ =>
    show win1_2.index ⟨_, htl⟩ 2 * 128 ≤ q.val ∧ q.val < win1_2.index ⟨_, htl⟩ 2 * 128 + 128
    rw [(r1_idx_2 ⟨_, htl⟩).2.2]; have := q.isLt; omega

theorem arrAt1_apply_of (c : Dev nD) (O : Vec Ideal S4x4096x128 .f32) (A : Vec Ideal S4x4096x4096 .f32) (Z : Vec Ideal S4x4096x128 .f32)
    (hO : (dat1 (F := Ideal) V c).arrAt 2 cfg1.N = O) (hA : V c main_arg1 = A) (hZ : V c main_arg0 = Z)
    (b : Fin 4) (n : Fin 4096) (q : Fin 128) :
    O (ix3 b n q) = ∑ k : Fin 4096, A (ix3 b n k) * Z (ix3 b k q) := by
  subst hO hA hZ
  exact arrAt1_apply V c b n q

end Value

end Cert.KernelIdeal.Val

end
-- ==== Proof.Val.R2Value.lean ====
/- Region 2's output array, over the extended reals: entry (b, n, q) is the sum over all 4096 places k of left(b, n, k) * right(b, k, q); the two chunks of 2048 add up to it because + is commutative and associative. -/
import proofs.«156192_j47339129536658_1_alg».proof.Proof.KI.R2Frame
import proofs.«156192_j47339129536658_1_alg».proof.Proof.LibChunkSum
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Val

open Idealize.ShloMosaic Idealize.ShloMosaic.TcCoe Idealize.ShloMosaic.ValueIdx
open Cert.KernelIdeal.Gen Cert.KernelIdeal.Fr

section Pieces
variable {F : FTy → Type} [FloatOps F]

theorem r2_hz2 : (![0, 0] : Fin 2 → Nat) = fun _ => 0 := funext fun a => by fin_cases a <;> rfl
theorem r2_hz3 : (![0, 0, 0] : Fin 3 → Nat) = fun _ => 0 := funext fun a => by fin_cases a <;> rfl

variable (c : Dev nD) (i : grid2.Coords) (a3 : Memref sig .tc .vmem S1x1024x2048 .f32) (h3 : a3.IsWhole) (a4 : Memref sig .tc .vmem S1x2048x128 .f32) (h4 : a4.IsWhole) (a5 : Memref sig .tc .vmem S1x1024x128 .f32) (h5 : a5.IsWhole) (a6 : Memref sig .tc .vmem S1024x128 .f32) (h6 : a6.IsWhole)

theorem r2_sout_A_eq (hc0 : cond2_0 i) (hc1 : ¬cond2_1 i) (x0 : Vec F S1x1024x2048 .f32) (x1 : Vec F S1x2048x128 .f32) :
    sout2_A_0 c i a3 h3 a4 h4 a5 h5 a6 h6 hc0 hc1 x0 x1 = k2_pay2 x0 x1 (k2_pay1 (F := F)) := by
  unfold sout2_A_0
  rw [View.read_writes_eq_canon _ _ _ (scover2_A_0 c i a3 h3 a4 h4 a5 h5 a6 h6 hc0 hc1 x0 x1)]
  unfold kernelRun2_A
  dsimp only
  sl_unfold_words
  rw [View.canon_cons_unit_zero (S := S1024x128) r2_hz2, View.readCov_unit_zero (S := S1024x128) _ r2_hz2]
  simp only [View.readAt_eq_ld, h3.read_unread, h4.read_unread, View.ld_unit_zero (S := S1x1024x2048) r2_hz3, View.ld_unit_zero (S := S1x2048x128) r2_hz3]

theorem r2_out_B_eq (hc0 : ¬cond2_0 i) (hc1 : cond2_1 i) (x0 : Vec F S1x1024x2048 .f32) (x1 : Vec F S1x2048x128 .f32) (xs0 : Vec F S1024x128 .f32) :
    out2_B_2 c i a3 h3 a4 h4 a5 h5 a6 h6 hc0 hc1 x0 x1 xs0 = k2_pay3 (k2_pay2 x0 x1 xs0) := by
  unfold out2_B_2
  rw [View.read_writes_eq_canon _ _ _ (cover2_B_2 c i a3 h3 a4 h4 a5 h5 a6 h6 hc0 hc1 x0 x1 xs0)]
  unfold kernelRun2_B
  dsimp only
  sl_unfold_words
  rw [View.canon_unit_zero r2_hz3]
  simp only [View.readCov_unit_zero (S := S1024x128) _ r2_hz2, View.readAt_eq_ld, h3.read_unread, h4.read_unread, h6.read_unread, View.ld_unit_zero (S := S1x1024x2048) r2_hz3, View.ld_unit_zero (S := S1x2048x128) r2_hz3, View.ld_unit_zero (S := S1024x128) r2_hz2]

end Pieces

section IdealPayloads

abbrev r2_D : DotDims S1024x2048 S2048x128 S1024x128 := dot_S1024x2048_S2048x128_S1024x128_1_0_0_1_n_n

theorem r2_D_rank : r2_D.contr.rank = 1 := rfl
theorem r2_D_size : r2_D.contr.size ⟨0, by rw [r2_D_rank]; omega⟩ = 2048 := rfl

def r2_e : r2_D.contr.Idx ≃ Fin 2048 := contrEquiv1 r2_D 2048 r2_D_rank r2_D_size

theorem r2_e_symm_val (k : Fin 2048) : ((r2_e.symm k) ⟨0, by decide⟩ : ℕ) = k.val := contrEquiv1_symm_val r2_D 2048 r2_D_rank r2_D_size k

theorem r2_lhs_0 (j : S1024x128.Idx) (k : r2_D.contr.Idx) : (r2_D.lhsIdx j k 0 : ℕ) = j 0 := by
  simp [DotDims.lhsIdx, r2_D, dot_S1024x2048_S2048x128_S1024x128_1_0_0_1_n_n]; rfl
theorem r2_lhs_1 (j : S1024x128.Idx) (k : r2_D.contr.Idx) : (r2_D.lhsIdx j k 1 : ℕ) = k ⟨0, by decide⟩ := by
  simp [DotDims.lhsIdx, r2_D, dot_S1024x2048_S2048x128_S1024x128_1_0_0_1_n_n]; rfl
theorem r2_rhs_0 (j : S1024x128.Idx) (k : r2_D.contr.Idx) : (r2_D.rhsIdx j k 0 : ℕ) = k ⟨0, by decide⟩ := by
  simp [DotDims.rhsIdx, r2_D, dot_S1024x2048_S2048x128_S1024x128_1_0_0_1_n_n]; rfl
theorem r2_rhs_1 (j : S1024x128.Idx) (k : r2_D.contr.Idx) : (r2_D.rhsIdx j k 1 : ℕ) = j 1 := by
  simp [DotDims.rhsIdx, r2_D, dot_S1024x2048_S2048x128_S1024x128_1_0_0_1_n_n]; rfl

theorem r2_pay1_apply (j : S1024x128.Idx) : k2_pay1 (F := Ideal) j = 0 := by
  unfold k2_pay1
  refine (congrFun (shapeCast_self _ _) j).trans ?_
  exact Ideal.ofBits_zero_f32

theorem r2_pay2_apply (x0 : Vec Ideal S1x1024x2048 .f32) (x1 : Vec Ideal S1x2048x128 .f32) (acc : Vec Ideal S1024x128 .f32) (p : Fin 1024) (q : Fin 128) :
    k2_pay2 x0 x1 acc (ix2 p q) = acc (ix2 p q) + ∑ k : Fin 2048, x0 (ix3 0 p k) * x1 (ix3 0 k q) := by
  unfold k2_pay2
  refine (congrFun (shapeCast_self _ _) (ix2 p q)).trans ?_
  refine congrArg (acc (ix2 p q) + ·) ?_
  refine (Ideal.matmul_constant_zero_apply r2_D none _ _ (ix2 p q)).trans ?_
  refine (Equiv.sum_comp r2_e.symm _).symm.trans ?_
  refine Finset.sum_congr rfl fun k _ => ?_
  refine (congrArg₂ (· * ·) (shapeCast_dropUnit_apply ![1024, 2048] x0 shapeCasts_S1x1024x2048_S1024x2048 _) (shapeCast_dropUnit_apply ![2048, 128] x1 shapeCasts_S1x2048x128_S2048x128 _)).trans ?_
  refine congrArg₂ (· * ·) (congrArg x0 ?_) (congrArg x1 ?_)
  · funext a; apply Fin.ext
    match a with
    | ⟨0, _⟩ => rfl
    | ⟨1, _⟩ => exact r2_lhs_0 (ix2 p q) (r2_e.symm k)
    | ⟨2, _⟩ => exact (r2_lhs_1 (ix2 p q) (r2_e.symm k)).trans (r2_e_symm_val k)
  · funext a; apply Fin.ext
    match a with
    | ⟨0, _⟩ => rfl
    | ⟨1, _⟩ => exact (r2_rhs_0 (ix2 p q) (r2_e.symm k)).trans (r2_e_symm_val k)
    | ⟨2, _⟩ => exact r2_rhs_1 (ix2 p q) (r2_e.symm k)

theorem r2_pay3_apply (v : Vec Ideal S1024x128 .f32) (p : Fin 1024) (q : Fin 128) :
    k2_pay3 v (ix3 0 p q) = v (ix2 p q) := by
  unfold k2_pay3
  refine (shapeCast_addUnit_apply ![1024, 128] v shapeCasts_S1024x128_S1x1024x128 (ix3 0 p q)).trans ?_
  refine congrArg v ?_
  funext a
  match a with
  | ⟨0, _⟩ => rfl
  | ⟨1, _⟩ => rfl

end IdealPayloads

section Value
variable (V : (c : Dev nD) → (b : Ref sig .tc) → Buf (Elt Ideal) ((c : Thread nD τ).loc b))

abbrev r2_larr (c : Dev nD) : Vec Ideal S4x4096x4096 .f32 := V c main_arg1
abbrev r2_rarr (c : Dev nD) : Vec Ideal S4x4096x128 .f32 := V c main_v8

abbrev r2_oarr (c : Dev nD) : Vec Ideal S4x4096x128 .f32 := (dat2 (F := Ideal) V c).arrAt 2 cfg2.N
abbrev r2_lblk (c : Dev nD) (t : Fin cfg2.N) : Vec Ideal S1x1024x2048 .f32 := iblk2 V c 0 t
abbrev r2_rblk (c : Dev nD) (t : Fin cfg2.N) : Vec Ideal S1x2048x128 .f32 := iblk2 V c 1 t

theorem r2_idx_0 : ∀ t : Fin cfg2.N, win2_0.index t 0 = t.val / 8 ∧ win2_0.index t 1 = t.val % 8 / 2 ∧ win2_0.index t 2 = t.val % 2 :=
  (by decide +kernel : ∀ t : Fin grid2.N, win2_0.index t 0 = t.val / 8 ∧ win2_0.index t 1 = t.val % 8 / 2 ∧ win2_0.index t 2 = t.val % 2)
theorem r2_idx_1 : ∀ t : Fin cfg2.N, win2_1.index t 0 = t.val / 8 ∧ win2_1.index t 1 = t.val % 2 ∧ win2_1.index t 2 = 0 :=
  (by decide +kernel : ∀ t : Fin grid2.N, win2_1.index t 0 = t.val / 8 ∧ win2_1.index t 1 = t.val % 2 ∧ win2_1.index t 2 = 0)
theorem r2_idx_2 : ∀ t : Fin cfg2.N, win2_2.index t 0 = t.val / 8 ∧ win2_2.index t 1 = t.val % 8 / 2 ∧ win2_2.index t 2 = 0 :=
  (by decide +kernel : ∀ t : Fin grid2.N, win2_2.index t 0 = t.val / 8 ∧ win2_2.index t 1 = t.val % 8 / 2 ∧ win2_2.index t 2 = 0)

theorem r2_lblk_apply (c : Dev nD) (t : Fin cfg2.N) (p : Fin 1024) (k : Fin 2048) (b : Fin 4) (r s : Fin 4096)
    (hb : b.val = t.val / 8) (hr : r.val = 1024 * (t.val % 8 / 2) + p.val) (hs : s.val = 2048 * (t.val % 2) + k.val) :
    r2_lblk V c t (ix3 0 p k) = r2_larr V c (ix3 b r s) := by
  show ((cfg2.win 0).blk t).view.read (Elt Ideal) (V c (Pipeline.arrRef spec2 0)) (ix3 0 p k) = _
  rw [View.read_apply]
  show V c main_arg1 _ = V c main_arg1 _
  congr 1
  funext a; apply Fin.ext
  match a with
  | ⟨0, _⟩ => show win2_0.index t 0 * 1 + 1 * 0 = b.val; rw [(r2_idx_0 t).1, hb]; omega
  | ⟨1, _⟩ => show win2_0.index t 1 * 1024 + 1 * p.val = r.val; rw [(r2_idx_0 t).2.1, hr]; omega
  | ⟨2, _⟩ => show win2_0.index t 2 * 2048 + 1 * k.val = s.val; rw [(r2_idx_0 t).2.2, hs]; omega

theorem r2_rblk_apply (c : Dev nD) (t : Fin cfg2.N) (k : Fin 2048) (q : Fin 128) (b : Fin 4) (s : Fin 4096)
    (hb : b.val = t.val / 8) (hs : s.val = 2048 * (t.val % 2) + k.val) :
    r2_rblk V c t (ix3 0 k q) = r2_rarr V c (ix3 b s q) := by
  show ((cfg2.win 1).blk t).view.read (Elt Ideal) (V c (Pipeline.arrRef spec2 1)) (ix3 0 k q) = _
  rw [View.read_apply]
  show V c main_v8 _ = V c main_v8 _
  congr 1
  funext a; apply Fin.ext
  match a with
  | ⟨0, _⟩ => show win2_1.index t 0 * 1 + 1 * 0 = b.val; rw [(r2_idx_1 t).1, hb]; omega
  | ⟨1, _⟩ => show win2_1.index t 1 * 2048 + 1 * k.val = s.val; rw [(r2_idx_1 t).2.1, hs]; omega
  | ⟨2, _⟩ => show win2_1.index t 2 * 128 + 1 * q.val = q.val; rw [(r2_idx_1 t).2.2]; omega

theorem r2_acc_first (c : Dev nD) (t : Fin cfg2.N) (h0 : t.val % 2 = 0) (p : Fin 1024) (q : Fin 128) :
    (outsAt2 V c t.val t.isLt).2 (ix2 p q) = ∑ k : Fin 2048, r2_lblk V c t (ix3 0 p k) * r2_rblk V c t (ix3 0 k q) := by
  rw [outsAt2_A V c t h0]
  unfold pairA2; dsimp only
  refine (congrFun (r2_sout_A_eq (F := Ideal) c (grid2.coords t) (ms2_0 t) (hs2_0 t) (ms2_1 t) (hs2_1 t) (ms2_2 t) (hs2_2 t) scM2_0 (Memref.isWhole_whole _) ((hcond2_0 t).mpr h0) (fun h => Nat.mod_two_ne_one.mpr h0 ((hcond2_1 t).mp h)) (iblk2 V c 0 t) (iblk2 V c 1 t)) (ix2 p q)).trans ?_
  refine (r2_pay2_apply (iblk2 V c 0 t) (iblk2 V c 1 t) (k2_pay1 (F := Ideal)) p q).trans ?_
  rw [r2_pay1_apply, zero_add]

theorem r2_out_last (c : Dev nD) (t : Fin cfg2.N) (h1 : t.val % 2 = 1) (p : Fin 1024) (q : Fin 128) :
    (outsAt2 V c t.val t.isLt).1 (ix3 0 p q)
      = (outsAt2 V c (t.val - 1) (Nat.lt_of_le_of_lt (Nat.sub_le _ _) t.isLt)).2 (ix2 p q)
        + ∑ k : Fin 2048, r2_lblk V c t (ix3 0 p k) * r2_rblk V c t (ix3 0 k q) := by
  have h0 : ¬t.val % 2 = 0 := by omega
  rw [outsAt2_B V c t h0]
  unfold pairB2; dsimp only
  refine (congrFun (r2_out_B_eq (F := Ideal) c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) (ix3 0 p q)).trans ?_
  refine (r2_pay3_apply _ p q).trans ?_
  exact r2_pay2_apply (iblk2 V c 0 t) (iblk2 V c 1 t) _ p q

def r2_prodAt (c : Dev nD) (b : Fin 4) (n : Fin 4096) (q : Fin 128) : EReal :=
  ∑ k : Fin 4096, r2_larr V c (ix3 b n k) * r2_rarr V c (ix3 b k q)

def r2_prod (c : Dev nD) : Vec Ideal S4x4096x128 .f32 := fun j => r2_prodAt V c (j 0) (j 1) (j 2)

theorem r2_two_chunks (c : Dev nD) (t : Fin cfg2.N) (h1 : t.val % 2 = 1) (p : Fin 1024) (q : Fin 128) (b : Fin 4) (r : Fin 4096)
    (hb : b.val = t.val / 8) (hr : r.val = 1024 * (t.val % 8 / 2) + p.val) :
    (outsAt2 V c t.val t.isLt).1 (ix3 0 p q) = r2_prodAt V c b r q := by
  have hN : cfg2.N = 32 := N_2
  have htl : t.val < 32 := lt_of_lt_of_eq t.isLt hN
  rw [r2_out_last V c t h1 p q]
  have e0 := r2_acc_first V c ⟨t.val - 1, Nat.lt_of_le_of_lt (Nat.sub_le _ _) t.isLt⟩ (by show (t.val - 1) % 2 = 0; omega) p q
  refine (congrArg (· + _) e0).trans ?_
  unfold r2_prodAt
  refine Eq.trans ?_ (Cert.ChunkSum.sum_chunks (nb := 2) (n := 2048) (fun k : Fin 4096 => r2_larr V c (ix3 b r k) * r2_rarr V c (ix3 b k q))).symm
  rw [Fin.sum_univ_two]
  refine congrArg₂ (· + ·) (Finset.sum_congr rfl fun k _ => ?_) (Finset.sum_congr rfl fun k _ => ?_)
  · refine congrArg₂ (· * ·) (r2_lblk_apply V c _ p k b r _ ?_ ?_ ?_) (r2_rblk_apply V c _ k q b _ ?_ ?_)
    · show b.val = (t.val - 1) / 8; omega
    · show r.val = 1024 * ((t.val - 1) % 8 / 2) + p.val; omega
    · show (Cert.ChunkSum.pos (0 : Fin 2) k).val = 2048 * ((t.val - 1) % 2) + k.val; rw [Cert.ChunkSum.pos_val]; show k.val + 2048 * 0 = _; omega
    · show b.val = (t.val - 1) / 8; omega
    · show (Cert.ChunkSum.pos (0 : Fin 2) k).val = 2048 * ((t.val - 1) % 2) + k.val; rw [Cert.ChunkSum.pos_val]; show k.val + 2048 * 0 = _; omega
  · refine congrArg₂ (· * ·) (r2_lblk_apply V c t p k b r _ hb hr ?_) (r2_rblk_apply V c t k q b _ hb ?_)
    · show (Cert.ChunkSum.pos (1 : Fin 2) k).val = 2048 * (t.val % 2) + k.val; rw [Cert.ChunkSum.pos_val]; show k.val + 2048 * 1 = _; omega
    · show (Cert.ChunkSum.pos (1 : Fin 2) k).val = 2048 * (t.val % 2) + k.val; rw [Cert.ChunkSum.pos_val]; show k.val + 2048 * 1 = _; omega

theorem r2_flushed_eq (c : Dev nD) (t : Fin cfg2.N) (hf : (cfg2.win 2).flush t = true) :
    (dat2 V c).flushed 2 t = ((cfg2.win 2).blk t).view.read (Elt Ideal) (r2_prod V c) := by
  have hN : cfg2.N = 32 := N_2
  have htl : t.val < 32 := lt_of_lt_of_eq t.isLt hN
  have h1 : t.val % 2 = 1 := (flush2_2 t).mp hf
  show (cfg2.win 2).cut (grid2.coords t) ((dat2 V c).after 2 t) = _
  rw [after2_2]
  refine funext fun (y : S1x1024x128.Idx) => ?_
  obtain ⟨y0, p, q, rfl⟩ : ∃ (y0 : Fin 1) (p : Fin 1024) (q : Fin 128), y = ix3 y0 p q := ⟨y 0, y 1, y 2, eq_ix3 y⟩
  obtain rfl : y0 = 0 := Subsingleton.elim _ _
  rw [View.read_apply]
  show (outsAt2 V c t.val t.isLt).1 (ix3 0 p q) = r2_prod V c _
  have e : ((cfg2.win 2).blk t).view.emb (ix3 0 p q)
      = (ix3 (⟨t.val / 8, by omega⟩ : Fin 4) (⟨1024 * (t.val % 8 / 2) + p.val, by omega⟩ : Fin 4096) q : S4x4096x128.Idx) := by
    funext a; apply Fin.ext
    match a with
    | ⟨0, _⟩ => show win2_2.index t 0 * 1 + 1 * 0 = t.val / 8; rw [(r2_idx_2 t).1]; omega
    | ⟨1, _⟩ => show win2_2.index t 1 * 1024 + 1 * p.val = 1024 * (t.val % 8 / 2) + p.val; rw [(r2_idx_2 t).2.1]; omega
    | ⟨2, _⟩ => show win2_2.index t 2 * 128 + 1 * q.val = q.val; rw [(r2_idx_2 t).2.2]; omega
  rw [e]
  exact r2_two_chunks V c t h1 p q _ _ rfl rfl

theorem arrAt2_apply (c : Dev nD) (b : Fin 4) (n : Fin 4096) (q : Fin 128) :
    r2_oarr V c (ix3 b n q) = ∑ k : Fin 4096, r2_larr V c (ix3 b n k) * r2_rarr V c (ix3 b k q) := by
  have hN : cfg2.N = 32 := N_2
  have hb := b.isLt
  have hn := n.isLt
  have htl : 8 * b.val + 2 * (n.val / 1024) + 1 < cfg2.N := by rw [hN]; omega
  have hf : (cfg2.win 2).flush ⟨_, htl⟩ = true := (flush2_2 ⟨_, htl⟩).mpr (by show (8 * b.val + 2 * (n.val / 1024) + 1) % 2 = 1; omega)
  refine ((dat2 V c).arrAt_apply_of_mem 2 (r2_prod V c) (r2_flushed_eq V c) cfg2.N ⟨_, htl⟩ (ix3 b n q) htl hf ?_).trans rfl
  show ix3 b n q ∈ ((View.whole main_v9).slice (win2_2.rect ⟨_, htl⟩)).set
  rw [View.set_slice_whole, Rect.mem_set_unit]
  intro a
  match a with
  | ⟨0, _⟩ =>
    show win2_2.index ⟨_, htl⟩ 0 * 1 ≤ b.val ∧ b.val < win2_2.index ⟨_, htl⟩ 0 * 1 + 1
    rw [(r2_idx_2 ⟨_, htl⟩).1]; show (8 * b.val + 2 * (n.val / 1024) + 1) / 8 * 1 ≤ _ ∧ _ < (8 * b.val + 2 * (n.val / 1024) + 1) / 8 * 1 + 1; omega
  | ⟨1, _⟩ =>
    show win2_2.index ⟨_, htl⟩ 1 * 1024 ≤ n.val ∧ n.val < win2_2.index ⟨_, htl⟩ 1 * 1024 + 1024
    rw [(r2_idx_2 ⟨_, htl⟩).2.1]; show (8 * b.val + 2 * (n.val / 1024) + 1) % 8 / 2 * 1024 ≤ _ ∧ _ < (8 * b.val + 2 * (n.val / 1024) + 1) % 8 / 2 * 1024 + 1024; omega
  | ⟨2, _⟩ =>
    show win2_2.index ⟨_, htl⟩ 2 * 128 ≤ q.val ∧ q.val < win2_2.index ⟨_, htl⟩ 2 * 128 + 128
    rw [(r2_idx_2 ⟨_, htl⟩).2.2]; have := q.isLt; omega

theorem arrAt2_apply_of (c : Dev nD) (O : Vec Ideal S4x4096x128 .f32) (A : Vec Ideal S4x4096x4096 .f32) (Z : Vec Ideal S4x4096x128 .f32)
    (hO : (dat2 (F := Ideal) V c).arrAt 2 cfg2.N = O) (hA : V c main_arg1 = A) (hZ : V c main_v8 = Z)
    (b : Fin 4) (n : Fin 4096) (q : Fin 128) :
    O (ix3 b n q) = ∑ k : Fin 4096, A (ix3 b n k) * Z (ix3 b k q) := by
  subst hO hA hZ
  exact arrAt2_apply V c b n q

end Value

end Cert.KernelIdeal.Val

end
-- ==== Proof.Val.R3Value.lean ====
/- Region 3's output array, over the extended reals: entry (b, n, o) is the sum over the 384 features f of Z(b, n, f) * Wt(f, o); each grid point writes one block of 1024 rows of it. -/
import proofs.«156192_j47339129536658_1_alg».proof.Proof.KI.R3Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal.Gen Cert.KernelIdeal.Fr Idealize.ShloMosaic Idealize.ShloMosaic.TcCoe
open Idealize.ShloMosaic.ValueIdx

theorem lhs_k3_0 (i : S1024x128.Idx) (q : dot_S1024x384_S384x128_S1024x128_1_0_0_1_n_n.contr.Idx) :
    (dot_S1024x384_S384x128_S1024x128_1_0_0_1_n_n.lhsIdx i q 0).val = (i 0).val := by
  unfold DotDims.lhsIdx
  rw [dif_neg (show ¬(0 : Fin S1024x384.rank) ∈ dot_S1024x384_S384x128_S1024x128_1_0_0_1_n_n.lhsBatch by decide), dif_pos (show (0 : Fin S1024x384.rank) ∈ dot_S1024x384_S384x128_S1024x128_1_0_0_1_n_n.lhsNonContracting by decide)]
  rfl
theorem lhs_k3_1 (i : S1024x128.Idx) (q : dot_S1024x384_S384x128_S1024x128_1_0_0_1_n_n.contr.Idx) :
    (dot_S1024x384_S384x128_S1024x128_1_0_0_1_n_n.lhsIdx i q 1).val = (q ⟨0, by decide⟩).val :=
  dot_S1024x384_S384x128_S1024x128_1_0_0_1_n_n.lhsIdx_val_of_single rfl i q
theorem rhs_k3_0 (i : S1024x128.Idx) (q : dot_S1024x384_S384x128_S1024x128_1_0_0_1_n_n.contr.Idx) :
    (dot_S1024x384_S384x128_S1024x128_1_0_0_1_n_n.rhsIdx i q 0).val = (q ⟨0, by decide⟩).val :=
  dot_S1024x384_S384x128_S1024x128_1_0_0_1_n_n.rhsIdx_val_of_single rfl i q
theorem rhs_k3_1 (i : S1024x128.Idx) (q : dot_S1024x384_S384x128_S1024x128_1_0_0_1_n_n.contr.Idx) :
    (dot_S1024x384_S384x128_S1024x128_1_0_0_1_n_n.rhsIdx i q 1).val = (i 1).val := by
  unfold DotDims.rhsIdx
  rw [dif_neg (show ¬(1 : Fin S384x128.rank) ∈ dot_S1024x384_S384x128_S1024x128_1_0_0_1_n_n.rhsBatch by decide), dif_pos (show (1 : Fin S384x128.rank) ∈ dot_S1024x384_S384x128_S1024x128_1_0_0_1_n_n.rhsNonContracting by decide)]
  rfl

theorem matmul3_apply (A : FVec Ideal S1024x384 .bf16) (B : FVec Ideal S384x128 .bf16) (p : Fin 1024) (o : Fin 128) :
    matmul dot_S1024x384_S384x128_S1024x128_1_0_0_1_n_n none A B (constant (F := Ideal) S1024x128 .f32 0x00000000#32) (ix2 p o)
      = ∑ f : Fin 384, A (ix2 p f) * B (ix2 f o) := by
  show FloatOps.matmul dot_S1024x384_S384x128_S1024x128_1_0_0_1_n_n none A B (constant (F := Ideal) S1024x128 .f32 0x00000000#32) (ix2 p o) = _
  rw [Ideal.matmul_constant_zero_apply, ← Equiv.sum_comp (contrEquiv1 dot_S1024x384_S384x128_S1024x128_1_0_0_1_n_n 384 rfl rfl).symm]
  refine Finset.sum_congr rfl fun k _ => ?_
  have hk := contrEquiv1_symm_val dot_S1024x384_S384x128_S1024x128_1_0_0_1_n_n 384 rfl rfl k
  have el : dot_S1024x384_S384x128_S1024x128_1_0_0_1_n_n.lhsIdx (ix2 p o) ((contrEquiv1 dot_S1024x384_S384x128_S1024x128_1_0_0_1_n_n 384 rfl rfl).symm k) = ix2 p k := funext fun a => Fin.ext (by
    match a with
    | ⟨0, _⟩ => exact lhs_k3_0 _ _
    | ⟨1, _⟩ => exact (lhs_k3_1 _ _).trans hk)
  have er : dot_S1024x384_S384x128_S1024x128_1_0_0_1_n_n.rhsIdx (ix2 p o) ((contrEquiv1 dot_S1024x384_S384x128_S1024x128_1_0_0_1_n_n 384 rfl rfl).symm k) = ix2 k o := funext fun a => Fin.ext (by
    match a with
    | ⟨0, _⟩ => exact (rhs_k3_0 _ _).trans hk
    | ⟨1, _⟩ => exact rhs_k3_1 _ _)
  rw [el, er]

theorem pay3_apply (X0 : Vec Ideal S1x1024x384 .f32) (X1 : Vec Ideal S384x128 .f32) (z : Fin 1) (p : Fin 1024) (o : Fin 128) :
    k3_pay1 (F := Ideal) X0 X1 (ix3 z p o) = ∑ f : Fin 384, X0 (ix3 z p f) * X1 (ix2 f o) := by
  have hz : z = (0 : Fin 1) := Fin.ext (by omega)
  subst hz
  unfold k3_pay1
  refine (shapeCast_ab_1ab_apply _ _ (0 : Fin 1) p o).trans ?_
  refine (matmul3_apply _ _ p o).trans ?_
  refine Finset.sum_congr rfl fun f _ => ?_
  rw [truncf_apply, truncf_apply, shapeCast_self, shapeCast_1ab_ab_apply]

theorem hz3 : (![0, 0, 0] : Fin 3 → Nat) = fun _ => 0 := funext fun a => by fin_cases a <;> rfl
theorem hz2 : (![0, 0] : Fin 2 → Nat) = fun _ => 0 := funext fun a => by fin_cases a <;> rfl

def G3 (Z : S4x4096x384.Idx → EReal) (W : S384x128.Idx → EReal) : S4x4096x128.Idx → EReal := fun i =>
  ∑ f : Fin 384, Z (ix3 (⟨(i 0).val, (i 0).isLt⟩ : Fin 4) (⟨(i 1).val, (i 1).isLt⟩ : Fin 4096) f) * W (ix2 f (⟨(i 2).val, (i 2).isLt⟩ : Fin 128))

theorem G3_apply (Z : S4x4096x384.Idx → EReal) (W : S384x128.Idx → EReal) (b : Fin 4) (n : Fin 4096) (o : Fin 128) :
    G3 Z W (ix3 b n o) = ∑ f : Fin 384, Z (ix3 b n f) * W (ix2 f o) := rfl

theorem sum_eq_G3 (X0 : S1x1024x384.Idx → EReal) (X1 : S384x128.Idx → EReal) (Z : S4x4096x384.Idx → EReal) (W : S384x128.Idx → EReal)
    (z : Fin 1) (p : Fin 1024) (o : Fin 128) (i : S4x4096x128.Idx)
    (h0 : ∀ f : Fin 384, X0 (ix3 z p f) = Z (ix3 (⟨(i 0).val, (i 0).isLt⟩ : Fin 4) (⟨(i 1).val, (i 1).isLt⟩ : Fin 4096) f))
    (h1 : ∀ f : Fin 384, X1 (ix2 f o) = W (ix2 f (⟨(i 2).val, (i 2).isLt⟩ : Fin 128))) :
    ∑ f : Fin 384, X0 (ix3 z p f) * X1 (ix2 f o) = G3 Z W i :=
  Finset.sum_congr rfl fun f _ => by rw [h0 f, h1 f]

theorem idx_facts3 : ∀ t : Fin cfg3.N, win3_0.index t (0 : Fin 3) = win3_2.index t (0 : Fin 3)
    ∧ win3_0.index t (1 : Fin 3) = win3_2.index t (1 : Fin 3)
    ∧ win3_0.index t (2 : Fin 3) = 0
    ∧ win3_1.index t (0 : Fin 2) = 0
    ∧ win3_1.index t (1 : Fin 2) = 0
    ∧ win3_2.index t (0 : Fin 3) = t.val / 4
    ∧ win3_2.index t (1 : Fin 3) = t.val % 4
    ∧ win3_2.index t (2 : Fin 3) = 0 :=
  (by decide +kernel : ∀ t : Fin grid3.N, _)

theorem flushed3_eq (V : (c : Dev nD) → (b : Ref sig .tc) → Buf (Elt Ideal) ((c : Thread nD τ).loc b)) (c : Dev nD) (t : Fin cfg3.N) :
    (dat3 (F := Ideal) V c).flushed 2 t = ((cfg3.win 2).blk t).view.read (Elt Ideal) (G3 (V c main_v23) (V c main_v24)) := by
  show (cfg3.win 2).cut (grid3.coords t) ((dat3 (F := Ideal) V c).after 2 t) = _
  rw [after3_2]
  unfold out3_2
  rw [View.canon_unit_zero hz3]
  simp only [View.ld_unit_zero (S := S1x1024x384) hz3, View.ld_unit_zero (S := S384x128) hz2]
  obtain ⟨e0, e1, e2, e3, e4, e5, e6, e7⟩ := idx_facts3 t
  funext j
  obtain ⟨z, p, o, rfl⟩ : ∃ (z : Fin 1) (p : Fin 1024) (o : Fin 128), j = ix3 z p o := ⟨j 0, j 1, j 2, eq_ix3 j⟩
  show k3_pay1 (F := Ideal) (iblk3 V c 0 t) (iblk3 V c 1 t) (ix3 z p o) = G3 (V c main_v23) (V c main_v24) (((cfg3.win 2).blk t).view.emb (ix3 z p o))
  refine (pay3_apply _ _ z p o).trans (sum_eq_G3 _ _ _ _ z p o _ (fun f => ?_) (fun f => ?_))
  · show V c main_v23 (((cfg3.win 0).blk t).view.emb (ix3 z p f)) = _
    refine congrArg (V c main_v23) (funext fun a => Fin.ext ?_)
    match a with
    | ⟨0, _⟩ => show win3_0.index t (0 : Fin 3) * 1 + 1 * z.val = win3_2.index t (0 : Fin 3) * 1 + 1 * z.val; omega
    | ⟨1, _⟩ => show win3_0.index t (1 : Fin 3) * 1024 + 1 * p.val = win3_2.index t (1 : Fin 3) * 1024 + 1 * p.val; omega
    | ⟨2, _⟩ => show win3_0.index t (2 : Fin 3) * 384 + 1 * f.val = f.val; omega
  · show V c main_v24 (((cfg3.win 1).blk t).view.emb (ix2 f o)) = _
    refine congrArg (V c main_v24) (funext fun a => Fin.ext ?_)
    match a with
    | ⟨0, _⟩ => show win3_1.index t (0 : Fin 2) * 384 + 1 * f.val = f.val; omega
    | ⟨1, _⟩ => show win3_1.index t (1 : Fin 2) * 128 + 1 * o.val = win3_2.index t (2 : Fin 3) * 128 + 1 * o.val; omega

theorem mem_blk3 (t : Fin cfg3.N) (i : S4x4096x128.Idx) :
    i ∈ ((cfg3.win 2).blk t).view.set ↔ ∀ a : Fin 3, win3_2.index t a * S1x1024x128.size a ≤ (i a).val ∧ (i a).val < win3_2.index t a * S1x1024x128.size a + S1x1024x128.size a := by
  show i ∈ ((View.whole main_v25).slice (win3_2.rect t)).set ↔ _
  rw [View.set_slice_whole, Rect.mem_set_unit]
  exact Iff.rfl

theorem cover3 (i : S4x4096x128.Idx) : ∃ t : Fin cfg3.N, (cfg3.win 2).flush t = true ∧ i ∈ ((cfg3.win 2).blk t).view.set := by
  have hi0 : (i 0).val < 4 := (i 0).isLt
  have hi1 : (i 1).val < 4096 := (i 1).isLt
  have hi2 : (i 2).val < 128 := (i 2).isLt
  have hN : cfg3.N = 16 := N_3
  let t : Fin cfg3.N := ⟨4 * (i 0).val + (i 1).val / 1024, by omega⟩
  have ht : t.val = 4 * (i 0).val + (i 1).val / 1024 := rfl
  obtain ⟨e0, e1, e2, e3, e4, e5, e6, e7⟩ := idx_facts3 t
  refine ⟨t, flush3_2 t, ?_⟩
  rw [mem_blk3]
  intro a
  match a with
  | ⟨0, _⟩ => show win3_2.index t (0 : Fin 3) * 1 ≤ (i 0).val ∧ (i 0).val < win3_2.index t (0 : Fin 3) * 1 + 1; omega
  | ⟨1, _⟩ => show win3_2.index t (1 : Fin 3) * 1024 ≤ (i 1).val ∧ (i 1).val < win3_2.index t (1 : Fin 3) * 1024 + 1024; omega
  | ⟨2, _⟩ => show win3_2.index t (2 : Fin 3) * 128 ≤ (i 2).val ∧ (i 2).val < win3_2.index t (2 : Fin 3) * 128 + 128; omega

theorem arrAt3_eq (V : (c : Dev nD) → (b : Ref sig .tc) → Buf (Elt Ideal) ((c : Thread nD τ).loc b)) (c : Dev nD) :
    (dat3 (F := Ideal) V c).arrAt 2 cfg3.N = G3 (V c main_v23) (V c main_v24) :=
  (dat3 (F := Ideal) V c).arrAt_eq_of_cover 2 (G3 (V c main_v23) (V c main_v24)) (fun t _ => flushed3_eq V c t) cover3

theorem arrAt3_apply_of (V : (c : Dev nD) → (b : Ref sig .tc) → Buf (Elt Ideal) ((c : Thread nD τ).loc b)) (c : Dev nD)
    (O : S4x4096x128.Idx → EReal) (Z : S4x4096x384.Idx → EReal) (W : S384x128.Idx → EReal)
    (hO : (dat3 (F := Ideal) V c).arrAt 2 cfg3.N = O) (hZ : V c main_v23 = Z) (hW : V c main_v24 = W)
    (b : Fin 4) (n : Fin 4096) (o : Fin 128) :
    O (ix3 b n o) = ∑ f : Fin 384, Z (ix3 b n f) * W (ix2 f o) := by
  subst hO hZ hW
  exact (congrFun (arrAt3_eq V c) (ix3 b n o)).trans (G3_apply _ _ b n o)

end Cert.KernelIdeal.Val

end
-- ==== Proof.Val.RefRead.lean ====
/- The reference's result term, stage by stage, read at an index: the degree as a sum over rows, each adjacency product and the final product as sums over the contracted axis. -/
import proofs.«156192_j47339129536658_1_alg».proof.Proof.Gen.ReferenceIdeal.Run
import proofs.«156192_j47339129536658_1_alg».proof.Proof.Gen.ReferenceIdeal.Read
import Idealize.ShloMosaic.Lib.ValueIdx
import Idealize.ShloMosaic.PureOps.Ideal.Laws

noncomputable section

namespace Cert.Bridge

open Cert.ReferenceIdeal Cert.ReferenceIdeal.Gen Idealize.ShloMosaic Idealize.ShloMosaic.TcCoe Idealize.ShloMosaic.StableHlo
open Idealize.ShloMosaic.ValueIdx

variable {F : FTy → Type} [FloatOps F]

abbrev A3 (F : FTy → Type) [FloatOps F] := (⟨S4x4096x128, .f32⟩ : BufTy).Contents (Elt F)
abbrev Adj (F : FTy → Type) [FloatOps F] := (⟨S4x4096x4096, .f32⟩ : BufTy).Contents (Elt F)
abbrev Deg (F : FTy → Type) [FloatOps F] := (⟨S4x4096, .f32⟩ : BufTy).Contents (Elt F)
abbrev Wt (F : FTy → Type) [FloatOps F] := (⟨S128x384, .f32⟩ : BufTy).Contents (Elt F)
abbrev Zs (F : FTy → Type) [FloatOps F] := (⟨S4x4096x384, .f32⟩ : BufTy).Contents (Elt F)

def step (deg : Deg F) (y z : A3 F) : A3 F :=
  subf (mulf (broadcastInDim S4x4096x128 ![] bcast_S_S4x4096x128 (constant S_ .f32 0x3F7FFFF8#32))
    (subf (mulf (broadcastInDim S4x4096x128 ![0, 1, 2] bcast_S4x4096x1_S4x4096x128_0_1_2
      (broadcastInDim S4x4096x1 ![0, 1] bcast_S4x4096_S4x4096x1_0_1 deg)) z) y)) z

def third (s x : A3 F) : A3 F :=
  subf (mulf (broadcastInDim S4x4096x128 ![] bcast_S_S4x4096x128 (constant S_ .f32 0x40000000#32)) s) x

def stack (x z1 z2 : A3 F) : Zs F :=
  shapeCast _ (concatenate S4x3x4096x128 1
    [⟨S4x1x4096x128, broadcastInDim S4x1x4096x128 ![0, 2, 3] bcast_S4x4096x128_S4x1x4096x128_0_2_3 x⟩,
     ⟨S4x1x4096x128, broadcastInDim S4x1x4096x128 ![0, 2, 3] bcast_S4x4096x128_S4x1x4096x128_0_2_3 z1⟩,
     ⟨S4x1x4096x128, broadcastInDim S4x1x4096x128 ![0, 2, 3] bcast_S4x4096x128_S4x1x4096x128_0_2_3 z2⟩]
    concatenates_S4x1x4096x128_S4x1x4096x128_S4x1x4096x128_S4x3x4096x128_d1) shapeCasts_S4x3x4096x128_S4x4096x384

def refDeg (a : Adj F) : Deg F := Host.reduceAdd a (constant S_ .f32 0x00000000#32) reducesTo_S4x4096x4096_S4x4096_d1 h_S_
def refDot (a : Adj F) (z : A3 F) : A3 F := Host.dotGeneral dot_S4x4096x4096_S4x4096x128_S4x4096x128_2_1_1_2_0_0 none a z
def refZ1 (x : A3 F) (a : Adj F) : A3 F := step (refDeg a) (refDot a x) x
def refZ2 (x : A3 F) (a : Adj F) : A3 F := third (step (refDeg a) (refDot a (refZ1 x a)) (refZ1 x a)) x

def refOut (zs : Zs F) (w : Wt F) : A3 F := Host.dotGeneral dot_S4x4096x384_S128x384_S4x4096x128_2_1_01_0_n_n none zs w

theorem ref_term (x : A3 F) (a : Adj F) (w : Wt F) :
    Read.val_main_v24 (F := F) x a w = refOut (stack x (refZ1 x a) (refZ2 x a)) w := rfl

theorem refDeg_apply (a : Adj Ideal) (b : Fin 4) (j : Fin 4096) :
    refDeg (F := Ideal) a (ix2 b j) = ∑ i : Fin 4096, a (ix3 b i j) := by
  refine (Read.val_main_v0_apply a (ix2 b j)).trans ?_
  rw [show (Read.val_main_cst (F := Ideal)) (Shape.Idx.first h_S_) = (0 : EReal) from Ideal.ofBits_zero_f32, zero_add]
  refine Finset.sum_congr rfl fun i _ => congrArg a (funext fun d => Fin.ext ?_)
  match d with | ⟨0, _⟩ => rfl | ⟨1, _⟩ => rfl | ⟨2, _⟩ => rfl

theorem refDot_apply (a : Adj Ideal) (z : A3 Ideal) (b : Fin 4) (n : Fin 4096) (q : Fin 128) :
    refDot (F := Ideal) a z (ix3 b n q) = ∑ k : Fin 4096, a (ix3 b n k) * z (ix3 b k q) := by
  refine (Read.val_main_v4_apply z a (ix3 b n q)).trans ?_
  refine Finset.sum_congr rfl fun k _ => ?_
  congr 1
  · exact congrArg a (funext fun d => Fin.ext (by match d with | ⟨0, _⟩ => rfl | ⟨1, _⟩ => rfl | ⟨2, _⟩ => rfl))
  · exact congrArg z (funext fun d => Fin.ext (by match d with | ⟨0, _⟩ => rfl | ⟨1, _⟩ => rfl | ⟨2, _⟩ => rfl))

theorem refOut_apply (zs : Zs Ideal) (w : Wt Ideal) (b : Fin 4) (n : Fin 4096) (o : Fin 128) :
    refOut (F := Ideal) zs w (ix3 b n o) = ∑ f : Fin 384, zs (ix3 b n f) * w (ix2 o f) := by
  unfold refOut
  simp only [Host.dotGeneral]
  rw [Ideal.dotGeneral_apply, ← Equiv.sum_comp (ValueIdx.contrEquiv1 dot_S4x4096x384_S128x384_S4x4096x128_2_1_01_0_n_n 384 rfl rfl).symm]
  refine Finset.sum_congr rfl fun k _ => ?_
  have hk := ValueIdx.contrEquiv1_symm_val dot_S4x4096x384_S128x384_S4x4096x128_2_1_01_0_n_n 384 rfl rfl k
  congr 1
  · exact congrArg zs (funext fun d => Fin.ext (by
      match d with
      | ⟨0, _⟩ => exact Read.lhs_main_v24_0 _ _
      | ⟨1, _⟩ => exact Read.lhs_main_v24_1 _ _
      | ⟨2, _⟩ => exact (Read.lhs_main_v24_2 _ _).trans hk))
  · exact congrArg w (funext fun d => Fin.ext (by
      match d with
      | ⟨0, _⟩ => exact Read.rhs_main_v24_0 _ _
      | ⟨1, _⟩ => exact (Read.rhs_main_v24_1 _ _).trans hk))

end Cert.Bridge

end
-- ==== Proof.Val.Core.lean ====
/- The bridge's core, free of either program's run: arrays whose entries are the plain sums the regions compute, glued by the shared pointwise host arithmetic, make the reference's result term. -/
import proofs.«156192_j47339129536658_1_alg».proof.Proof.Val.RefRead

noncomputable section

namespace Cert.Bridge

open Cert.ReferenceIdeal Cert.ReferenceIdeal.Gen Idealize.ShloMosaic Idealize.ShloMosaic.TcCoe Idealize.ShloMosaic.StableHlo
open Idealize.ShloMosaic.ValueIdx

theorem deg_eq (a : Adj Ideal) (deg : Deg Ideal)
    (hdeg : ∀ (b : Fin 4) (j : Fin 4096), deg (ix2 b j) = ∑ i : Fin 4096, a (ix3 b i j)) : deg = refDeg a := by
  funext i
  obtain ⟨b, j, rfl⟩ : ∃ (b : Fin 4) (j : Fin 4096), i = ix2 b j := ⟨i 0, i 1, eq_ix2 i⟩
  rw [hdeg, refDeg_apply]

theorem dot_eq (a : Adj Ideal) (z y : A3 Ideal)
    (hy : ∀ (b : Fin 4) (n : Fin 4096) (q : Fin 128), y (ix3 b n q) = ∑ k : Fin 4096, a (ix3 b n k) * z (ix3 b k q)) :
    y = refDot a z := by
  funext i
  obtain ⟨b, n, q, rfl⟩ : ∃ (b : Fin 4) (n : Fin 4096) (q : Fin 128), i = ix3 b n q := ⟨i 0, i 1, i 2, eq_ix3 i⟩
  rw [hy, refDot_apply]

theorem result_eq (x : A3 Ideal) (a : Adj Ideal) (w : Wt Ideal)
    (deg : Deg Ideal) (y1 y2 out : A3 Ideal) (zs : Zs Ideal) (wt : (⟨2, ![384, 128]⟩ : Shape).Idx → EReal)
    (hdeg : ∀ (b : Fin 4) (j : Fin 4096), deg (ix2 b j) = ∑ i : Fin 4096, a (ix3 b i j))
    (hy1 : ∀ (b : Fin 4) (n : Fin 4096) (q : Fin 128), y1 (ix3 b n q) = ∑ k : Fin 4096, a (ix3 b n k) * x (ix3 b k q))
    (hy2 : ∀ (b : Fin 4) (n : Fin 4096) (q : Fin 128),
      y2 (ix3 b n q) = ∑ k : Fin 4096, a (ix3 b n k) * (step deg y1 x) (ix3 b k q))
    (hzs : zs = stack x (step deg y1 x) (third (step deg y2 (step deg y1 x)) x))
    (hwt : ∀ (f : Fin 384) (o : Fin 128), wt (ix2 f o) = w (ix2 o f))
    (hout : ∀ (b : Fin 4) (n : Fin 4096) (o : Fin 128), out (ix3 b n o) = ∑ f : Fin 384, zs (ix3 b n f) * wt (ix2 f o)) :
    Read.val_main_v24 (F := Ideal) x a w = out := by
  have e0 : deg = refDeg a := deg_eq a deg hdeg
  have e1 : y1 = refDot a x := dot_eq a x y1 hy1
  have ez1 : step deg y1 x = refZ1 x a := by rw [e0, e1]; rfl
  have e2 : y2 = refDot a (refZ1 x a) := dot_eq a (refZ1 x a) y2 (by intro b n q; rw [hy2, ez1])
  have ezs : zs = stack x (refZ1 x a) (refZ2 x a) := by rw [hzs, ez1, e2, e0]; rfl
  rw [ref_term]
  funext i
  obtain ⟨b, n, o, rfl⟩ : ∃ (b : Fin 4) (n : Fin 4096) (o : Fin 128), i = ix3 b n o := ⟨i 0, i 1, i 2, eq_ix3 i⟩
  rw [refOut_apply, hout, ezs]
  exact Finset.sum_congr rfl fun f _ => by rw [hwt]

end Cert.Bridge

end
-- ==== Proof.Val.Bridge.lean ====
/- The idealized kernel program's result is the reference's term of the arguments: the last fold holds region 3's output at the result buffer, and each region's output read at an index is the plain sum the core lemma asks for. -/
import proofs.«156192_j47339129536658_1_alg».proof.Proof.Val.Fold
import proofs.«156192_j47339129536658_1_alg».proof.Proof.Val.R0Value
import proofs.«156192_j47339129536658_1_alg».proof.Proof.Val.R1Value
import proofs.«156192_j47339129536658_1_alg».proof.Proof.Val.R2Value
import proofs.«156192_j47339129536658_1_alg».proof.Proof.Val.R3Value
import proofs.«156192_j47339129536658_1_alg».proof.Proof.Val.Core
import Idealize.ShloMosaic.Lib.ValueLayout

noncomputable section

namespace Cert.KernelIdeal.Val

open Idealize.ShloMosaic
open Idealize.ShloMosaic.ValueIdx
open Cert.KernelIdeal.Gen Cert.KernelIdeal.Fr

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v25) = W7 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v25 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

theorem result_eq (c : Dev nD) :
    Cert.ReferenceIdeal.Read.val_main_v24 (F := Ideal) (m ((c.tc : Thread nD τ).loc main_arg0)) (m ((c.tc : Thread nD τ).loc main_arg1))
        (m ((c.tc : Thread nD τ).loc main_arg2))
      = W7 m ρ c (Proc.devRef .tc main_v25) := by
  rw [W7_main_v25]
  refine Cert.Bridge.result_eq (X m c) (Adj m c) (Wgt m c) (R0 m ρ c) (R1 m ρ c) (R2 m ρ c) (R3 m ρ c) (Zcat m ρ c) (WgtT m c)
    ?_ ?_ ?_ ?_ ?_ ?_
  · intro b j
    exact arrAt0_apply (V0 m ρ) c b j
  · intro b n q
    exact arrAt1_apply_of (V2 m ρ) c (R1 m ρ c) (Adj m c) (X m c) rfl (V2_main_arg1 m ρ c) (V2_main_arg0 m ρ c) b n q
  · intro b n q
    exact arrAt2_apply_of (V4 m ρ) c (R2 m ρ c) (Adj m c) (Z1 m ρ c) rfl (V4_main_arg1 m ρ c) (V4_main_v8 m ρ c) b n q
  · rfl
  · intro f o
    exact transpose_ix2_apply (Wgt m c) transposes_S128x384_S384x128_1_0 f o
  · intro b n o
    exact arrAt3_apply_of (V6 m ρ) c (R3 m ρ c) (Zcat m ρ c) (WgtT m c) rfl (V6_main_v23 m ρ c) (V6_main_v24 m ρ c) b n o

end Cert.KernelIdeal.Val

end
-- ==== Proof.lean ====
/- A Chebyshev graph convolution (K = 3) on 4 graphs of 4096 nodes and 128 channels: deg = column sums of adj, Z1 = lam (deg x - adj x) - x, Z2 = 2 (lam (deg Z1 - adj Z1) - Z1) - x, out = [x | Z1 | Z2] Wᵀ.
   The kernel computes deg, the two products and the final product in four tiled regions with the same pointwise host arithmetic between them as the reference; over the extended reals each region's output entry is the reference's plain sum (only commutativity and associativity of + are used), so the results agree. The idealization rewrote nothing, so preservation is trivial. -/
import proofs.«156192_j47339129536658_1_alg».proof.Defs
import proofs.«156192_j47339129536658_1_alg».proof.Proof.Gen.Kernel
import proofs.«156192_j47339129536658_1_alg».proof.Proof.Gen.KernelIdeal
import proofs.«156192_j47339129536658_1_alg».proof.Proof.Gen.ReferenceIdeal
import proofs.«156192_j47339129536658_1_alg».proof.Proof.Gen.Pre_finite_inputs
import proofs.«156192_j47339129536658_1_alg».proof.Proof.Gen.ReferenceIdeal.Run
import proofs.«156192_j47339129536658_1_alg».proof.Proof.KB.Run
import proofs.«156192_j47339129536658_1_alg».proof.Proof.KI.Run
import proofs.«156192_j47339129536658_1_alg».proof.Proof.Val.Bridge
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Fr.frame m ρ

theorem frame_ki : @Cert.frame_KernelIdeal Cert.KernelIdeal.Gen.facts Cert.Pre_finite_inputs.Gen.facts :=
  fun m ρ _ => Cert.KernelIdeal.Fr.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Fr.W7 m ρ c (Proc.devRef .tc Cert.KernelIdeal.main_v25), Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v24_eq]
  exact Cert.KernelIdeal.Val.result_eq m ρ c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
